-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part5 {F : FTy → Type} [FloatOps F] (main_arg20 : FVec F S128x40 .f32) (main_arg21 : FVec F S40 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x40 .f32 := Host.absf main_arg20
  let main_cst_34 : FVec F S_ .f32 := constant S_ .f32 0x7F800000#32
  let main_v90 : FVec F S128x40 .f32 := broadcastInDim S128x40 ![] bcast_S_S128x40 main_cst_34
  let main_v91 : IVec S128x40 1 := cmpf .olt main_v89 main_v90
  let main_c_35 : IVec S_ 1 := constantI S_ 1 1#1
  let main_v92 : IVec S_ 1 := (fun x v => Host.reduce IntOp.andi x v reducesTo_S128x40_S_d0_1 h_S_) main_v91 main_c_35
  let main_v93 : IVec S_ 1 := andi main_v88 main_v92
  let main_v94 : FVec F S40 .f32 := Host.absf main_arg21
  let main_cst_36 : FVec F S_ .f32 := constant S_ .f32 0x7F800000#32
  let main_v95 : FVec F S40 .f32 := broadcastInDim S40 ![] bcast_S_S40 main_cst_36
  let main_v96 : IVec S40 1 := cmpf .olt main_v94 main_v95
  let main_c_37 : IVec S_ 1 := constantI S_ 1 1#1
  let main_v97 : IVec S_ 1 := (fun x v => Host.reduce IntOp.andi x v reducesTo_S40_S_d0 h_S_) main_v96 main_c_37
  let main_v98 : IVec S_ 1 := andi main_v93 main_v97
  main_v98

def fn_part4 {F : FTy → Type} [FloatOps F] (main_arg16 : FVec F S128 .f32) (main_arg17 : FVec F S128 .f32) (main_arg18 : FVec F S128x128 .f32) (main_arg19 : FVec F S128 .f32) (main_arg20 : FVec F S128x40 .f32) (main_arg21 : FVec F S40 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg18
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg20 main_arg21 main_v83 main_v84 main_cst_32

def fn_part3 {F : FTy → Type} [FloatOps F] (main_arg13 : FVec F S128 .f32) (main_arg14 : FVec F S128 .f32) (main_arg15 : FVec F S128 .f32) (main_arg16 : FVec F S128 .f32) (main_arg17 : FVec F S128 .f32) (main_arg18 : FVec F S128x128 .f32) (main_arg19 : FVec F S128 .f32) (main_arg20 : FVec F S128x40 .f32) (main_arg21 : FVec F S40 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_arg20 main_arg21 main_v63 main_v67

def fn_part2 {F : FTy → Type} [FloatOps F] (main_arg9 : FVec F S128x128 .f32) (main_arg10 : FVec F S128x128 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128x128 .f32) (main_arg19 : FVec F S128 .f32) (main_arg20 : FVec F S128x40 .f32) (main_arg21 : FVec F S40 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_arg20 main_arg21 main_v48 main_v49 main_v50

def fn_part1 {F : FTy → Type} [FloatOps F] (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128x128 .f32) (main_arg19 : FVec F S128 .f32) (main_arg20 : FVec F S128x40 .f32) (main_arg21 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_v33

def fn {F : FTy → Type} [FloatOps F] (main_arg0 : FVec F S100000x64 .f32) (main_arg1 : IVec S2x1600000 32) (main_arg2 : IVec S100000 32) (main_arg3 : FVec F S64x128 .f32) (main_arg4 : FVec F S64x128 .f32) (main_arg5 : FVec F S128 .f32) (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128x128 .f32) (main_arg19 : FVec F S128 .f32) (main_arg20 : FVec F S128x40 .f32) (main_arg21 : FVec F S40 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1600000x64 : Shape := ⟨2, ![1600000, 64]⟩
abbrev S1x128 : Shape := ⟨2, ![1, 128]⟩
abbrev S100000x128 : Shape := ⟨2, ![100000, 128]⟩
abbrev S5000x64 : Shape := ⟨2, ![5000, 64]⟩
abbrev S5000x1 : Shape := ⟨2, ![5000, 1]⟩
abbrev S5000x128 : Shape := ⟨2, ![5000, 128]⟩
abbrev S1600000x128 : Shape := ⟨2, ![1600000, 128]⟩
abbrev S1x40 : Shape := ⟨2, ![1, 40]⟩
abbrev S100000x40 : Shape := ⟨2, ![100000, 40]⟩
abbrev S5000x40 : Shape := ⟨2, ![5000, 40]⟩
abbrev S5000 : Shape := ⟨1, ![5000]⟩

abbrev nBuf : Space → Nat
  | .hbm => 126
  | .vmem => 77
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S64x128, .f32⟩
  | .hbm, ⟨4, _⟩ => ⟨S64x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128x128, .f32⟩
  | .hbm, ⟨19, _⟩ => ⟨S128, .f32⟩
  | .hbm, ⟨20, _⟩ => ⟨S128x40, .f32⟩
  | .hbm, ⟨21, _⟩ => ⟨S40, .f32⟩
  | .hbm, ⟨22, _⟩ => ⟨S1x1600000, .i32⟩
  | .hbm, ⟨23, _⟩ => ⟨S1600000, .i32⟩
  | .hbm, ⟨24, _⟩ => ⟨S1x1600000, .i32⟩
  | .hbm, ⟨25, _⟩ => ⟨S1600000, .i32⟩
  | .hbm, ⟨26, _⟩ => ⟨S_, .f32⟩
  | .hbm, ⟨27, _⟩ => ⟨S1600000, .f32⟩
  | .hbm, ⟨28, _⟩ => ⟨S_, .f32⟩
  | .hbm, ⟨29, _⟩ => ⟨S100000, .f32⟩
  | .hbm, ⟨30, _⟩ => ⟨S1600000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x64, .f32⟩
  | .hbm, ⟨48, _⟩ => ⟨S_, .f32⟩
  | .hbm, ⟨49, _⟩ => ⟨S100000x64, .f32⟩
  | .hbm, ⟨50, _⟩ => ⟨S1600000x1, .i32⟩
  | .hbm, ⟨51, _⟩ => ⟨S100000x64, .f32⟩
  | .hbm, ⟨52, _⟩ => ⟨S1x128, .f32⟩
  | .hbm, ⟨53, _⟩ => ⟨S100000x128, .f32⟩
  | .hbm, ⟨54, _⟩ => ⟨S1x128, .f32⟩
  | .hbm, ⟨55, _⟩ => ⟨S1x128, .f32⟩
  | .hbm, ⟨56, _⟩ => ⟨S_, .f32⟩
  | .hbm, ⟨57, _⟩ => ⟨S1x128, .f32⟩
  | .hbm, ⟨58, _⟩ => ⟨S1x128, .f32⟩
  | .hbm, ⟨59, _⟩ => ⟨S_, .f32⟩
  | .hbm, ⟨60, _⟩ => ⟨S1x128, .f32⟩
  | .hbm, ⟨61, _⟩ => ⟨S1x128, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S1x128, .f32⟩
  | .hbm, ⟨66, _⟩ => ⟨S100000x128, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x128, .f32⟩
  | .hbm, ⟨76, _⟩ => ⟨S_, .f32⟩
  | .hbm, ⟨77, _⟩ => ⟨S100000x128, .f32⟩
  | .hbm, ⟨78, _⟩ => ⟨S1600000x1, .i32⟩
  | .hbm, ⟨79, _⟩ => ⟨S100000x128, .f32⟩
  | .hbm, ⟨80, _⟩ => ⟨S1x128, .f32⟩
  | .hbm, ⟨81, _⟩ => ⟨S100000x128, .f32⟩
  | .hbm, ⟨82, _⟩ => ⟨S1x128, .f32⟩
  | .hbm, ⟨83, _⟩ => ⟨S1x128, .f32⟩
  | .hbm, ⟨84, _⟩ => ⟨S_, .f32⟩
  | .hbm, ⟨85, _⟩ => ⟨S1x128, .f32⟩
  | .hbm, ⟨86, _⟩ => ⟨S1x128, .f32⟩
  | .hbm, ⟨87, _⟩ => ⟨S_, .f32⟩
  | .hbm, ⟨88, _⟩ => ⟨S1x128, .f32⟩
  | .hbm, ⟨89, _⟩ => ⟨S1x128, .f32⟩
  | .hbm, ⟨90, _⟩ => ⟨S1x128, .f32⟩
  | .hbm, ⟨91, _⟩ => ⟨S1x128, .f32⟩
  | .hbm, ⟨92, _⟩ => ⟨S1x128, .f32⟩
  | .hbm, ⟨93, _⟩ => ⟨S1x128, .f32⟩
  | .hbm, ⟨94, _⟩ => ⟨S100000x128, .f32⟩
  | .hbm, ⟨95, _⟩ => ⟨S_, .i32⟩
  | .hbm, ⟨96, _⟩ => ⟨S1600000, .i32⟩
  | .hbm, ⟨97, _⟩ => ⟨S1600000, .i1⟩
  | .hbm, ⟨98, _⟩ => ⟨S_, .i32⟩
  | .hbm, ⟨99, _⟩ => ⟨S1600000, .i32⟩
  | .hbm, ⟨100, _⟩ => ⟨S1600000, .i32⟩
  | .hbm, ⟨101, _⟩ => ⟨S1600000, .i32⟩
  | .hbm, ⟨102, _⟩ => ⟨S1600000x1, .i32⟩
  | .hbm, ⟨103, _⟩ => ⟨S1600000x128, .f32⟩
  | .hbm, ⟨104, _⟩ => ⟨S_, .f32⟩
  | .hbm, ⟨105, _⟩ => ⟨S100000x128, .f32⟩
  | .hbm, ⟨106, _⟩ => ⟨S1600000x1, .i32⟩
  | .hbm, ⟨107, _⟩ => ⟨S100000x128, .f32⟩
  | .hbm, ⟨108, _⟩ => ⟨S1x128, .f32⟩
  | .hbm, ⟨109, _⟩ => ⟨S100000x128, .f32⟩
  | .hbm, ⟨110, _⟩ => ⟨S1x128, .f32⟩
  | .hbm, ⟨111, _⟩ => ⟨S1x128, .f32⟩
  | .hbm, ⟨112, _⟩ => ⟨S_, .f32⟩
  | .hbm, ⟨113, _⟩ => ⟨S1x128, .f32⟩
  | .hbm, ⟨114, _⟩ => ⟨S1x128, .f32⟩
  | .hbm, ⟨115, _⟩ => ⟨S_, .f32⟩
  | .hbm, ⟨116, _⟩ => ⟨S1x128, .f32⟩
  | .hbm, ⟨117, _⟩ => ⟨S1x128, .f32⟩
  | .hbm, ⟨118, _⟩ => ⟨S1x128, .f32⟩
  | .hbm, ⟨119, _⟩ => ⟨S1x128, .f32⟩
  | .hbm, ⟨120, _⟩ => ⟨S1x128, .f32⟩
  | .hbm, ⟨121, _⟩ => ⟨S1x128, .f32⟩
  | .hbm, ⟨122, _⟩ => ⟨S100000x128, .f32⟩
  | .hbm, ⟨123, _⟩ => ⟨S1x128, .f32⟩
  | .hbm, ⟨124, _⟩ => ⟨S1x40, .f32⟩
  | .hbm, ⟨125, _⟩ => ⟨S100000x40, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S64x128, .f32⟩
  | .local _ .vmem, ⟨7, _⟩ => ⟨S64x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x1, .f32⟩
  | .local _ .vmem, ⟨28, _⟩ => ⟨S5000x1, .f32⟩
  | .local _ .vmem, ⟨29, _⟩ => ⟨S128x128, .f32⟩
  | .local _ .vmem, ⟨30, _⟩ => ⟨S128x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S1x128, .f32⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S5000x1, .f32⟩
  | .local _ .vmem, ⟨51, _⟩ => ⟨S5000x1, .f32⟩
  | .local _ .vmem, ⟨52, _⟩ => ⟨S128x128, .f32⟩
  | .local _ .vmem, ⟨53, _⟩ => ⟨S128x128, .f32⟩
  | .local _ .vmem, ⟨54, _⟩ => ⟨S1x128, .f32⟩
  | .local _ .vmem, ⟨55, _⟩ => ⟨S5000x128, .f32⟩
  | .local _ .vmem, ⟨56, _⟩ => ⟨S5000x128, .f32⟩
  | .local _ .vmem, ⟨57, _⟩ => ⟨S1x128, .f32⟩
  | .local _ .vmem, ⟨58, _⟩ => ⟨S1x128, .f32⟩
  | .local _ .vmem, ⟨59, _⟩ => ⟨S1x128, .f32⟩
  | .local _ .vmem, ⟨60, _⟩ => ⟨S1x128, .f32⟩
  | .local _ .vmem, ⟨61, _⟩ => ⟨S5000x128, .f32⟩
  | .local _ .vmem, ⟨62, _⟩ => ⟨S5000x128, .f32⟩
  | .local _ .vmem, ⟨63, _⟩ => ⟨S1x128, .f32⟩
  | .local _ .vmem, ⟨64, _⟩ => ⟨S1x128, .f32⟩
  | .local _ .vmem, ⟨65, _⟩ => ⟨S1x128, .f32⟩
  | .local _ .vmem, ⟨66, _⟩ => ⟨S1x128, .f32⟩
  | .local _ .vmem, ⟨67, _⟩ => ⟨S5000x128, .f32⟩
  | .local _ .vmem, ⟨68, _⟩ => ⟨S5000x128, .f32⟩
  | .local _ .vmem, ⟨69, _⟩ => ⟨S5000x128, .f32⟩
  | .local _ .vmem, ⟨70, _⟩ => ⟨S5000x128, .f32⟩
  | .local _ .vmem, ⟨71, _⟩ => ⟨S128x128, .f32⟩
  | .local _ .vmem, ⟨72, _⟩ => ⟨S1x128, .f32⟩
  | .local _ .vmem, ⟨73, _⟩ => ⟨S128x40, .f32⟩
  | .local _ .vmem, ⟨74, _⟩ => ⟨S1x40, .f32⟩
  | .local _ .vmem, ⟨75, _⟩ => ⟨S5000x40, .f32⟩
  | .local _ .vmem, ⟨76, _⟩ => ⟨S5000x40, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | _, _ => false

abbrev semScoped : Fin 0 → Bool
  | ⟨_, h⟩ => absurd h (Nat.not_lt_zero _)

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  ofTc nBuf bufTy 0 71 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst : Ref sig .tc := ⟨.hbm, 26, rfl⟩
abbrev main_v4 : Ref sig .tc := ⟨.hbm, 27, rfl⟩
abbrev main_cst_0 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst_1 : Ref sig .tc := ⟨.hbm, 32, rfl⟩
abbrev main_v8 : Ref sig .tc := ⟨.hbm, 33, rfl⟩
abbrev main_v9 : Ref sig .tc := ⟨.hbm, 34, rfl⟩
abbrev main_cst_2 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_c : Ref sig .tc := ⟨.hbm, 39, rfl⟩
abbrev main_v13 : Ref sig .tc := ⟨.hbm, 40, rfl⟩
abbrev main_v14 : Ref sig .tc := ⟨.hbm, 41, rfl⟩
abbrev main_c_3 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_cst_4 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24_0 : Ref sig .tc := ⟨.hbm, 53, rfl⟩
abbrev main_v24_1 : Ref sig .tc := ⟨.hbm, 54, rfl⟩
abbrev main_v24_2 : Ref sig .tc := ⟨.hbm, 55, rfl⟩
abbrev main_cst_5 : Ref sig .tc := ⟨.hbm, 56, rfl⟩
abbrev main_v25 : Ref sig .tc := ⟨.hbm, 57, rfl⟩
abbrev main_v26 : Ref sig .tc := ⟨.hbm, 58, rfl⟩
abbrev main_cst_6 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_c_7 : Ref sig .tc := ⟨.hbm, 67, rfl⟩
abbrev main_v34 : Ref sig .tc := ⟨.hbm, 68, rfl⟩
abbrev main_v35 : Ref sig .tc := ⟨.hbm, 69, rfl⟩
abbrev main_c_8 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_cst_9 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45_0 : Ref sig .tc := ⟨.hbm, 81, rfl⟩
abbrev main_v45_1 : Ref sig .tc := ⟨.hbm, 82, rfl⟩
abbrev main_v45_2 : Ref sig .tc := ⟨.hbm, 83, rfl⟩
abbrev main_cst_10 : Ref sig .tc := ⟨.hbm, 84, rfl⟩
abbrev main_v46 : Ref sig .tc := ⟨.hbm, 85, rfl⟩
abbrev main_v47 : Ref sig .tc := ⟨.hbm, 86, rfl⟩
abbrev main_cst_11 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_c_12 : Ref sig .tc := ⟨.hbm, 95, rfl⟩
abbrev main_v55 : Ref sig .tc := ⟨.hbm, 96, rfl⟩
abbrev main_v56 : Ref sig .tc := ⟨.hbm, 97, rfl⟩
abbrev main_c_13 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_cst_14 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66_0 : Ref sig .tc := ⟨.hbm, 109, rfl⟩
abbrev main_v66_1 : Ref sig .tc := ⟨.hbm, 110, rfl⟩
abbrev main_v66_2 : Ref sig .tc := ⟨.hbm, 111, rfl⟩
abbrev main_cst_15 : Ref sig .tc := ⟨.hbm, 112, rfl⟩
abbrev main_v67 : Ref sig .tc := ⟨.hbm, 113, rfl⟩
abbrev main_v68 : Ref sig .tc := ⟨.hbm, 114, rfl⟩
abbrev main_cst_16 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_scratch0 : Ref sig .tc := ⟨.vmem, 13, rfl⟩
abbrev cc0_scratch1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg5_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg6_1 : Ref sig .tc := ⟨.vmem, 33, rfl⟩
abbrev cc2_stg7_0 : Ref sig .tc := ⟨.vmem, 34, rfl⟩
abbrev cc2_stg8_0 : Ref sig .tc := ⟨.vmem, 35, rfl⟩
abbrev cc2_scratch0 : Ref sig .tc := ⟨.vmem, 36, rfl⟩
abbrev cc2_scratch1 : Ref sig .tc := ⟨.vmem, 37, rfl⟩
abbrev cc3_stg0_0 : Ref sig .tc := ⟨.vmem, 38, rfl⟩
abbrev cc3_stg0_1 : Ref sig .tc := ⟨.vmem, 39, rfl⟩
abbrev cc3_stg1_0 : Ref sig .tc := ⟨.vmem, 40, rfl⟩
abbrev cc3_stg2_0 : Ref sig .tc := ⟨.vmem, 41, rfl⟩
abbrev cc3_stg3_0 : Ref sig .tc := ⟨.vmem, 42, rfl⟩
abbrev cc3_stg4_0 : Ref sig .tc := ⟨.vmem, 43, rfl⟩
abbrev cc3_stg5_0 : Ref sig .tc := ⟨.vmem, 44, rfl⟩
abbrev cc3_stg5_1 : Ref sig .tc := ⟨.vmem, 45, rfl⟩
abbrev cc4_stg0_0 : Ref sig .tc := ⟨.vmem, 46, rfl⟩
abbrev cc4_stg0_1 : Ref sig .tc := ⟨.vmem, 47, rfl⟩
abbrev cc4_stg1_0 : Ref sig .tc := ⟨.vmem, 48, rfl⟩
abbrev cc4_stg1_1 : Ref sig .tc := ⟨.vmem, 49, rfl⟩
abbrev cc4_stg2_0 : Ref sig .tc := ⟨.vmem, 50, rfl⟩
abbrev cc4_stg2_1 : Ref sig .tc := ⟨.vmem, 51, rfl⟩
abbrev cc4_stg3_0 : Ref sig .tc := ⟨.vmem, 52, rfl⟩
abbrev cc4_stg4_0 : Ref sig .tc := ⟨.vmem, 53, rfl⟩
abbrev cc4_stg5_0 : Ref sig .tc := ⟨.vmem, 54, rfl⟩
abbrev cc4_stg6_0 : Ref sig .tc := ⟨.vmem, 55, rfl⟩
abbrev cc4_stg6_1 : Ref sig .tc := ⟨.vmem, 56, rfl⟩
abbrev cc4_stg7_0 : Ref sig .tc := ⟨.vmem, 57, rfl⟩
abbrev cc4_stg8_0 : Ref sig .tc := ⟨.vmem, 58, rfl⟩
abbrev cc4_scratch0 : Ref sig .tc := ⟨.vmem, 59, rfl⟩
abbrev cc4_scratch1 : Ref sig .tc := ⟨.vmem, 60, rfl⟩
abbrev cc5_stg0_0 : Ref sig .tc := ⟨.vmem, 61, rfl⟩
abbrev cc5_stg0_1 : Ref sig .tc := ⟨.vmem, 62, rfl⟩
abbrev cc5_stg1_0 : Ref sig .tc := ⟨.vmem, 63, rfl⟩
abbrev cc5_stg2_0 : Ref sig .tc := ⟨.vmem, 64, rfl⟩
abbrev cc5_stg3_0 : Ref sig .tc := ⟨.vmem, 65, rfl⟩
abbrev cc5_stg4_0 : Ref sig .tc := ⟨.vmem, 66, rfl⟩
abbrev cc5_stg5_0 : Ref sig .tc := ⟨.vmem, 67, rfl⟩
abbrev cc5_stg5_1 : Ref sig .tc := ⟨.vmem, 68, rfl⟩
abbrev cc6_stg0_0 : Ref sig .tc := ⟨.vmem, 69, rfl⟩
abbrev cc6_stg0_1 : Ref sig .tc := ⟨.vmem, 70, rfl⟩
abbrev cc6_stg1_0 : Ref sig .tc := ⟨.vmem, 71, rfl⟩
abbrev cc6_stg2_0 : Ref sig .tc := ⟨.vmem, 72, rfl⟩
abbrev cc6_stg3_0 : Ref sig .tc := ⟨.vmem, 73, rfl⟩
abbrev cc6_stg4_0 : Ref sig .tc := ⟨.vmem, 74, rfl⟩
abbrev cc6_stg5_0 : Ref sig .tc := ⟨.vmem, 75, rfl⟩
abbrev cc6_stg5_1 : Ref sig .tc := ⟨.vmem, 76, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem5_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem6_1 : DmaSem sig := 31
abbrev cc2_sem7_0 : DmaSem sig := 32
abbrev cc2_sem8_0 : DmaSem sig := 33
abbrev cc3_sem0_0 : DmaSem sig := 34
abbrev cc3_sem0_1 : DmaSem sig := 35
abbrev cc3_sem1_0 : DmaSem sig := 36
abbrev cc3_sem2_0 : DmaSem sig := 37
abbrev cc3_sem3_0 : DmaSem sig := 38
abbrev cc3_sem4_0 : DmaSem sig := 39
abbrev cc3_sem5_0 : DmaSem sig := 40
abbrev cc3_sem5_1 : DmaSem sig := 41
abbrev cc4_sem0_0 : DmaSem sig := 42
abbrev cc4_sem0_1 : DmaSem sig := 43
abbrev cc4_sem1_0 : DmaSem sig := 44
abbrev cc4_sem1_1 : DmaSem sig := 45
abbrev cc4_sem2_0 : DmaSem sig := 46
abbrev cc4_sem2_1 : DmaSem sig := 47
abbrev cc4_sem3_0 : DmaSem sig := 48
abbrev cc4_sem4_0 : DmaSem sig := 49
abbrev cc4_sem5_0 : DmaSem sig := 50
abbrev cc4_sem6_0 : DmaSem sig := 51
abbrev cc4_sem6_1 : DmaSem sig := 52
abbrev cc4_sem7_0 : DmaSem sig := 53
abbrev cc4_sem8_0 : DmaSem sig := 54
abbrev cc5_sem0_0 : DmaSem sig := 55
abbrev cc5_sem0_1 : DmaSem sig := 56
abbrev cc5_sem1_0 : DmaSem sig := 57
abbrev cc5_sem2_0 : DmaSem sig := 58
abbrev cc5_sem3_0 : DmaSem sig := 59
abbrev cc5_sem4_0 : DmaSem sig := 60
abbrev cc5_sem5_0 : DmaSem sig := 61
abbrev cc5_sem5_1 : DmaSem sig := 62
abbrev cc6_sem0_0 : DmaSem sig := 63
abbrev cc6_sem0_1 : DmaSem sig := 64
abbrev cc6_sem1_0 : DmaSem sig := 65
abbrev cc6_sem2_0 : DmaSem sig := 66
abbrev cc6_sem3_0 : DmaSem sig := 67
abbrev cc6_sem4_0 : DmaSem sig := 68
abbrev cc6_sem5_0 : DmaSem sig := 69
abbrev cc6_sem5_1 : DmaSem sig := 70

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c19_i32 : BitVec 32 := 19#32
  let v35 : BitVec 1 := Scalar.cmpi .eq arg0 c19_i32
  let v36 : BitVec 32 := Scalar.extui v35
  let c0_i32_25 : BitVec 32 := 0#32
  let v37 : BitVec 1 := Scalar.cmpi .ne v36 c0_i32_25
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def k2_cond2 (i : grid2.Coords) : BitVec 1 :=
  let arg0 : BitVec 32 := BitVec.ofNat 32 (i 0).val
  let c19_i32 : BitVec 32 := 19#32
  let v36 : BitVec 1 := Scalar.cmpi .eq arg0 c19_i32
  let v37 : BitVec 32 := Scalar.extui v36
  let c0_i32_25 : BitVec 32 := 0#32
  let v38 : BitVec 1 := Scalar.cmpi .ne v37 c0_i32_25
  v38

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def k4_cond2 (i : grid4.Coords) : BitVec 1 :=
  let arg0 : BitVec 32 := BitVec.ofNat 32 (i 0).val
  let c19_i32 : BitVec 32 := 19#32
  let v36 : BitVec 1 := Scalar.cmpi .eq arg0 c19_i32
  let v37 : BitVec 32 := Scalar.extui v36
  let c0_i32_25 : BitVec 32 := 0#32
  let v38 : BitVec 1 := Scalar.cmpi .ne v37 c0_i32_25
  v38

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x40 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x40 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x40 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x64 : S_.BroadcastsInDim S100000x64 (![] : Fin 0 → Fin S100000x64.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S64x128_S64x128_0_0 : ∀ a, (![0, 0] : Fin 2 → Nat) a + S64x128.size a ≤ S64x128.size a
  h_S64x128 : 0 < S64x128.numel
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  reduces_S5000x128_S128 : S5000x128.Reduces [0] S128
  bcast_S_S1x128 : S_.BroadcastsInDim S1x128 (![] : Fin 0 → Fin S1x128.rank)
  shapeCasts_S5000x128_S5000x128 : S5000x128.ShapeCasts S5000x128
  bcast_S_S100000x128 : S_.BroadcastsInDim S100000x128 (![] : Fin 0 → Fin S100000x128.rank)
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S100000x128.size a
  hwx4_6 : ∀ i : grid4.Coords, EltTy.bits .f32 = 32 ∨ (Rect.block (s := S100000x128) S5000x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x40.size a ≤ S128x40.size a
  hwx6_3 : ∀ i : grid6.Coords, EltTy.bits .f32 = 32 ∨ (Rect.block (s := S128x40) S128x40.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x40.size a ≤ S1x40.size a
  hwx6_4 : ∀ i : grid6.Coords, EltTy.bits .f32 = 32 ∨ (Rect.block (s := S1x40) S1x40.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x40.size a ≤ S100000x40.size a
  hwx6_5 : ∀ i : grid6.Coords, EltTy.bits .f32 = 32 ∨ (Rect.block (s := S100000x40) S5000x40.size (cc6_transform_5 i) (hinb6_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_v22) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v24_1) S1x128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v24_2) S1x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond2 i == 1#1) | ⟨_ + 9, h⟩ => absurd h (Nat.not_lt.2 (Nat.le_add_left _ _))

abbrev win1_0 : Pipeline.Window sig grid1 :=
  Pipeline.Window.ofSpec (Memref.whole main_v24_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v44) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v45_0) S5000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v45_1) S1x128.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v45_2) S1x128.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev idle2 : Fin 9 → grid2.Coords → Bool := fun | 0 => fun _ => false | 1 => fun _ => false | 2 => fun _ => false | 3 => fun _ => false | 4 => fun _ => false | 5 => fun _ => false | 6 => fun _ => false | 7 => fun i => !(k2_cond2 i == 1#1) | 8 => fun i => !(k2_cond2 i == 1#1) | ⟨_ + 9, h⟩ => absurd h (Nat.not_lt.2 (Nat.le_add_left _ _))

abbrev win3_0 : Pipeline.Window sig grid3 :=
  Pipeline.Window.ofSpec (Memref.whole main_v45_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v47) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v51) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v52) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v53) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v54) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v64) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v54) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v12) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg9) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg10) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v65) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v66_0) S5000x128.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v66_1) S1x128.size cc4_transform_7 reads4_7 true true 1 stage4_7 sem4_7
    hrank4 hreads4_7 hinb4_7 nbuf4_7 (Memref.isWhole_whole _) hwx4_7 hstage4_7

abbrev win4_8 : Pipeline.Window sig grid4 :=
  Pipeline.Window.ofSpec (Memref.whole main_v66_2) S1x128.size cc4_transform_8 reads4_8 true true 1 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev idle4 : Fin 9 → grid4.Coords → Bool := fun | 0 => fun _ => false | 1 => fun _ => false | 2 => fun _ => false | 3 => fun _ => false | 4 => fun _ => false | 5 => fun _ => false | 6 => fun _ => false | 7 => fun i => !(k4_cond2 i == 1#1) | 8 => fun i => !(k4_cond2 i == 1#1) | ⟨_ + 9, h⟩ => absurd h (Nat.not_lt.2 (Nat.le_add_left _ _))

abbrev win5_0 : Pipeline.Window sig grid5 :=
  Pipeline.Window.ofSpec (Memref.whole main_v66_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v68) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v72) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v73) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v74) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v75) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v75) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg18) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v76) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg20) S128x40.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v77) S1x40.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v78) S5000x40.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S100000x128 : Shape := ⟨2, ![100000, 128]⟩
abbrev S1x128 : Shape := ⟨2, ![1, 128]⟩
abbrev S1600000x128 : Shape := ⟨2, ![1600000, 128]⟩
abbrev S100000x40 : Shape := ⟨2, ![100000, 40]⟩
abbrev S1x40 : Shape := ⟨2, ![1, 40]⟩

abbrev nBuf : Space → Nat
  | .hbm => 283
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x128, .f32⟩
  | 4 => ⟨S64x128, .f32⟩
  | 5 => ⟨S128, .f32⟩
  | 6 => ⟨S128x128, .f32⟩
  | 7 => ⟨S128x128, .f32⟩
  | 8 => ⟨S128, .f32⟩
  | 9 => ⟨S128x128, .f32⟩
  | 10 => ⟨S128x128, .f32⟩
  | 11 => ⟨S128, .f32⟩
  | 12 => ⟨S128, .f32⟩
  | 13 => ⟨S128, .f32⟩
  | 14 => ⟨S128, .f32⟩
  | 15 => ⟨S128, .f32⟩
  | 16 => ⟨S128, .f32⟩
  | 17 => ⟨S128, .f32⟩
  | 18 => ⟨S128x128, .f32⟩
  | 19 => ⟨S128, .f32⟩
  | 20 => ⟨S128x40, .f32⟩
  | 21 => ⟨S40, .f32⟩
  | 22 => ⟨S1x1600000, .i32⟩
  | 23 => ⟨S1600000, .i32⟩
  | 24 => ⟨S1x1600000, .i32⟩
  | 25 => ⟨S1600000, .i32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000x64, .f32⟩
  | 35 => ⟨S_, .f32⟩
  | 36 => ⟨S100000x64, .f32⟩
  | 37 => ⟨S1600000x1, .i32⟩
  | 38 => ⟨S100000x64, .f32⟩
  | 39 => ⟨S_, .f32⟩
  | 40 => ⟨S1600000, .f32⟩
  | 41 => ⟨S_, .f32⟩
  | 42 => ⟨S100000, .f32⟩
  | 43 => ⟨S1600000x1, .i32⟩
  | 44 => ⟨S100000, .f32⟩
  | 45 => ⟨S_, .f32⟩
  | 46 => ⟨S100000, .f32⟩
  | 47 => ⟨S100000, .f32⟩
  | 48 => ⟨S100000x1, .f32⟩
  | 49 => ⟨S100000x64, .f32⟩
  | 50 => ⟨S100000x64, .f32⟩
  | 51 => ⟨S100000x128, .f32⟩
  | 52 => ⟨S100000x128, .f32⟩
  | 53 => ⟨S100000x128, .f32⟩
  | 54 => ⟨S1x128, .f32⟩
  | 55 => ⟨S100000x128, .f32⟩
  | 56 => ⟨S100000x128, .f32⟩
  | 57 => ⟨S_, .f32⟩
  | 58 => ⟨S128, .f32⟩
  | 59 => ⟨S_, .f32⟩
  | 60 => ⟨S128, .f32⟩
  | 61 => ⟨S128, .f32⟩
  | 62 => ⟨S_, .i32⟩
  | 63 => ⟨S_, .f32⟩
  | 64 => ⟨S128, .f32⟩
  | 65 => ⟨S1x128, .f32⟩
  | 66 => ⟨S_, .f32⟩
  | 67 => ⟨S1x128, .f32⟩
  | 68 => ⟨S1x128, .f32⟩
  | 69 => ⟨S100000x128, .f32⟩
  | 70 => ⟨S100000x128, .f32⟩
  | 71 => ⟨S100000x128, .f32⟩
  | 72 => ⟨S_, .f32⟩
  | 73 => ⟨S_, .f32⟩
  | 74 => ⟨S_, .f32⟩
  | 75 => ⟨S_, .f32⟩
  | 76 => ⟨S128, .f32⟩
  | 77 => ⟨S128, .f32⟩
  | 78 => ⟨S128, .f32⟩
  | 79 => ⟨S_, .f32⟩
  | 80 => ⟨S_, .i1⟩
  | 81 => ⟨S_, .f32⟩
  | 82 => ⟨S_, .f32⟩
  | 83 => ⟨S128, .f32⟩
  | 84 => ⟨S128, .f32⟩
  | 85 => ⟨S1x128, .f32⟩
  | 86 => ⟨S100000x128, .f32⟩
  | 87 => ⟨S100000x128, .f32⟩
  | 88 => ⟨S_, .f32⟩
  | 89 => ⟨S128, .f32⟩
  | 90 => ⟨S128, .f32⟩
  | 91 => ⟨S128, .f32⟩
  | 92 => ⟨S1x128, .f32⟩
  | 93 => ⟨S100000x128, .f32⟩
  | 94 => ⟨S100000x128, .f32⟩
  | 95 => ⟨S1x128, .f32⟩
  | 96 => ⟨S100000x128, .f32⟩
  | 97 => ⟨S100000x128, .f32⟩
  | 98 => ⟨S1x128, .f32⟩
  | 99 => ⟨S100000x128, .f32⟩
  | 100 => ⟨S100000x128, .f32⟩
  | 101 => ⟨S_, .f32⟩
  | 102 => ⟨S100000x128, .f32⟩
  | 103 => ⟨S100000x128, .f32⟩
  | 104 => ⟨S_, .i32⟩
  | 105 => ⟨S1600000, .i32⟩
  | 106 => ⟨S1600000, .i1⟩
  | 107 => ⟨S_, .i32⟩
  | 108 => ⟨S1600000, .i32⟩
  | 109 => ⟨S1600000, .i32⟩
  | 110 => ⟨S1600000, .i32⟩
  | 111 => ⟨S1600000x1, .i32⟩
  | 112 => ⟨S1600000x128, .f32⟩
  | 113 => ⟨S_, .f32⟩
  | 114 => ⟨S100000x128, .f32⟩
  | 115 => ⟨S1600000x1, .i32⟩
  | 116 => ⟨S100000x128, .f32⟩
  | 117 => ⟨S_, .f32⟩
  | 118 => ⟨S1600000, .f32⟩
  | 119 => ⟨S_, .f32⟩
  | 120 => ⟨S100000, .f32⟩
  | 121 => ⟨S1600000x1, .i32⟩
  | 122 => ⟨S100000, .f32⟩
  | 123 => ⟨S_, .f32⟩
  | 124 => ⟨S100000, .f32⟩
  | 125 => ⟨S100000, .f32⟩
  | 126 => ⟨S100000x1, .f32⟩
  | 127 => ⟨S100000x128, .f32⟩
  | _ => ⟨S100000x64, .f32⟩

abbrev hbmTy0_1 (i : Nat) : BufTy := match i % 128 with
  | 0 => ⟨S100000x128, .f32⟩
  | 1 => ⟨S100000x128, .f32⟩
  | 2 => ⟨S100000x128, .f32⟩
  | 3 => ⟨S100000x128, .f32⟩
  | 4 => ⟨S1x128, .f32⟩
  | 5 => ⟨S100000x128, .f32⟩
  | 6 => ⟨S100000x128, .f32⟩
  | 7 => ⟨S_, .f32⟩
  | 8 => ⟨S128, .f32⟩
  | 9 => ⟨S_, .f32⟩
  | 10 => ⟨S128, .f32⟩
  | 11 => ⟨S128, .f32⟩
  | 12 => ⟨S_, .i32⟩
  | 13 => ⟨S_, .f32⟩
  | 14 => ⟨S128, .f32⟩
  | 15 => ⟨S1x128, .f32⟩
  | 16 => ⟨S_, .f32⟩
  | 17 => ⟨S1x128, .f32⟩
  | 18 => ⟨S1x128, .f32⟩
  | 19 => ⟨S100000x128, .f32⟩
  | 20 => ⟨S100000x128, .f32⟩
  | 21 => ⟨S100000x128, .f32⟩
  | 22 => ⟨S_, .f32⟩
  | 23 => ⟨S_, .f32⟩
  | 24 => ⟨S_, .f32⟩
  | 25 => ⟨S_, .f32⟩
  | 26 => ⟨S128, .f32⟩
  | 27 => ⟨S128, .f32⟩
  | 28 => ⟨S128, .f32⟩
  | 29 => ⟨S_, .f32⟩
  | 30 => ⟨S_, .i1⟩
  | 31 => ⟨S_, .f32⟩
  | 32 => ⟨S_, .f32⟩
  | 33 => ⟨S128, .f32⟩
  | 34 => ⟨S128, .f32⟩
  | 35 => ⟨S1x128, .f32⟩
  | 36 => ⟨S100000x128, .f32⟩
  | 37 => ⟨S100000x128, .f32⟩
  | 38 => ⟨S_, .f32⟩
  | 39 => ⟨S128, .f32⟩
  | 40 => ⟨S128, .f32⟩
  | 41 => ⟨S128, .f32⟩
  | 42 => ⟨S1x128, .f32⟩
  | 43 => ⟨S100000x128, .f32⟩
  | 44 => ⟨S100000x128, .f32⟩
  | 45 => ⟨S1x128, .f32⟩
  | 46 => ⟨S100000x128, .f32⟩
  | 47 => ⟨S100000x128, .f32⟩
  | 48 => ⟨S1x128, .f32⟩
  | 49 => ⟨S100000x128, .f32⟩
  | 50 => ⟨S100000x128, .f32⟩
  | 51 => ⟨S_, .f32⟩
  | 52 => ⟨S100000x128, .f32⟩
  | 53 => ⟨S100000x128, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x128, .f32⟩
  | 63 => ⟨S_, .f32⟩
  | 64 => ⟨S100000x128, .f32⟩
  | 65 => ⟨S1600000x1, .i32⟩
  | 66 => ⟨S100000x128, .f32⟩
  | 67 => ⟨S_, .f32⟩
  | 68 => ⟨S1600000, .f32⟩
  | 69 => ⟨S_, .f32⟩
  | 70 => ⟨S100000, .f32⟩
  | 71 => ⟨S1600000x1, .i32⟩
  | 72 => ⟨S100000, .f32⟩
  | 73 => ⟨S_, .f32⟩
  | 74 => ⟨S100000, .f32⟩
  | 75 => ⟨S100000, .f32⟩
  | 76 => ⟨S100000x1, .f32⟩
  | 77 => ⟨S100000x128, .f32⟩
  | 78 => ⟨S100000x128, .f32⟩
  | 79 => ⟨S100000x128, .f32⟩
  | 80 => ⟨S100000x128, .f32⟩
  | 81 => ⟨S100000x128, .f32⟩
  | 82 => ⟨S1x128, .f32⟩
  | 83 => ⟨S100000x128, .f32⟩
  | 84 => ⟨S100000x128, .f32⟩
  | 85 => ⟨S_, .f32⟩
  | 86 => ⟨S128, .f32⟩
  | 87 => ⟨S_, .f32⟩
  | 88 => ⟨S128, .f32⟩
  | 89 => ⟨S128, .f32⟩
  | 90 => ⟨S_, .i32⟩
  | 91 => ⟨S_, .f32⟩
  | 92 => ⟨S128, .f32⟩
  | 93 => ⟨S1x128, .f32⟩
  | 94 => ⟨S_, .f32⟩
  | 95 => ⟨S1x128, .f32⟩
  | 96 => ⟨S1x128, .f32⟩
  | 97 => ⟨S100000x128, .f32⟩
  | 98 => ⟨S100000x128, .f32⟩
  | 99 => ⟨S100000x128, .f32⟩
  | 100 => ⟨S_, .f32⟩
  | 101 => ⟨S_, .f32⟩
  | 102 => ⟨S_, .f32⟩
  | 103 => ⟨S_, .f32⟩
  | 104 => ⟨S128, .f32⟩
  | 105 => ⟨S128, .f32⟩
  | 106 => ⟨S128, .f32⟩
  | 107 => ⟨S_, .f32⟩
  | 108 => ⟨S_, .i1⟩
  | 109 => ⟨S_, .f32⟩
  | 110 => ⟨S_, .f32⟩
  | 111 => ⟨S128, .f32⟩
  | 112 => ⟨S128, .f32⟩
  | 113 => ⟨S1x128, .f32⟩
  | 114 => ⟨S100000x128, .f32⟩
  | 115 => ⟨S100000x128, .f32⟩
  | 116 => ⟨S_, .f32⟩
  | 117 => ⟨S128, .f32⟩
  | 118 => ⟨S128, .f32⟩
  | 119 => ⟨S128, .f32⟩
  | 120 => ⟨S1x128, .f32⟩
  | 121 => ⟨S100000x128, .f32⟩
  | 122 => ⟨S100000x128, .f32⟩
  | 123 => ⟨S1x128, .f32⟩
  | 124 => ⟨S100000x128, .f32⟩
  | 125 => ⟨S100000x128, .f32⟩
  | 126 => ⟨S1x128, .f32⟩
  | 127 => ⟨S100000x128, .f32⟩
  | _ => ⟨S100000x64, .f32⟩

abbrev hbmTy0_2 (i : Nat) : BufTy := match i % 128 with
  | 0 => ⟨S100000x128, .f32⟩
  | 1 => ⟨S_, .f32⟩
  | 2 => ⟨S100000x128, .f32⟩
  | 3 => ⟨S100000x128, .f32⟩
  | 4 => ⟨S100000x128, .f32⟩
  | 5 => ⟨S1x128, .f32⟩
  | 6 => ⟨S100000x128, .f32⟩
  | 7 => ⟨S100000x128, .f32⟩
  | 8 => ⟨S100000x40, .f32⟩
  | 9 => ⟨S1x40, .f32⟩
  | 10 => ⟨S100000x40, .f32⟩
  | 11 => ⟨S100000x40, .f32⟩
  | 12 => ⟨S_, .f32⟩
  | 13 => ⟨S100000, .f32⟩
  | 14 => ⟨S_, .f32⟩
  | 15 => ⟨S100000, .f32⟩
  | 16 => ⟨S100000, .f32⟩
  | 17 => ⟨S100000x1, .f32⟩
  | 18 => ⟨S100000x40, .f32⟩
  | 19 => ⟨S100000x40, .f32⟩
  | 20 => ⟨S100000x40, .f32⟩
  | 21 => ⟨S_, .f32⟩
  | 22 => ⟨S100000, .f32⟩
  | 23 => ⟨S100000x1, .f32⟩
  | 24 => ⟨S100000x1, .f32⟩
  | 25 => ⟨S100000x40, .f32⟩
  | 26 => ⟨S100000x40, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_c : Ref sig .tc := ⟨.hbm, 26, rfl⟩
abbrev main_v4 : Ref sig .tc := ⟨.hbm, 27, rfl⟩
abbrev main_v5 : Ref sig .tc := ⟨.hbm, 28, rfl⟩
abbrev main_c_0 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_1 : Ref sig .tc := ⟨.hbm, 39, rfl⟩
abbrev main_v14 : Ref sig .tc := ⟨.hbm, 40, rfl⟩
abbrev main_cst_2 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_cst_3 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst_4 : Ref sig .tc := ⟨.hbm, 57, rfl⟩
abbrev main_v29 : Ref sig .tc := ⟨.hbm, 58, rfl⟩
abbrev main_cst_5 : Ref sig .tc := ⟨.hbm, 59, rfl⟩
abbrev main_v30 : Ref sig .tc := ⟨.hbm, 60, rfl⟩
abbrev main_v31 : Ref sig .tc := ⟨.hbm, 61, rfl⟩
abbrev main_c_6 : Ref sig .tc := ⟨.hbm, 62, rfl⟩
abbrev main_call0_cst : Ref sig .tc := ⟨.hbm, 63, rfl⟩
abbrev main_call0_v0 : Ref sig .tc := ⟨.hbm, 64, rfl⟩
abbrev main_call0_v1 : Ref sig .tc := ⟨.hbm, 65, rfl⟩
abbrev main_call0_cst_0 : Ref sig .tc := ⟨.hbm, 66, rfl⟩
abbrev main_call0_v2 : Ref sig .tc := ⟨.hbm, 67, rfl⟩
abbrev main_call0_v3 : Ref sig .tc := ⟨.hbm, 68, rfl⟩
abbrev main_call0_v4 : Ref sig .tc := ⟨.hbm, 69, rfl⟩
abbrev main_call0_v5 : Ref sig .tc := ⟨.hbm, 70, rfl⟩
abbrev main_call0_v6 : Ref sig .tc := ⟨.hbm, 71, rfl⟩
abbrev main_call0_v7 : Ref sig .tc := ⟨.hbm, 72, rfl⟩
abbrev main_call0_cst_1 : Ref sig .tc := ⟨.hbm, 73, rfl⟩
abbrev main_call0_v8 : Ref sig .tc := ⟨.hbm, 74, rfl⟩
abbrev main_call0_cst_2 : Ref sig .tc := ⟨.hbm, 75, rfl⟩
abbrev main_call0_v9 : Ref sig .tc := ⟨.hbm, 76, rfl⟩
abbrev main_call0_v10 : Ref sig .tc := ⟨.hbm, 77, rfl⟩
abbrev main_call0_v11 : Ref sig .tc := ⟨.hbm, 78, rfl⟩
abbrev main_call0_cst_3 : Ref sig .tc := ⟨.hbm, 79, rfl⟩
abbrev main_call0_v12 : Ref sig .tc := ⟨.hbm, 80, rfl⟩
abbrev main_call0_cst_4 : Ref sig .tc := ⟨.hbm, 81, rfl⟩
abbrev main_call0_call0_v0 : Ref sig .tc := ⟨.hbm, 82, rfl⟩
abbrev main_call0_call0_v1 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_cst_7 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_call1_cst : Ref sig .tc := ⟨.hbm, 101, rfl⟩
abbrev main_call1_v0 : Ref sig .tc := ⟨.hbm, 102, rfl⟩
abbrev main_v48 : Ref sig .tc := ⟨.hbm, 103, rfl⟩
abbrev main_c_8 : Ref sig .tc := ⟨.hbm, 104, rfl⟩
abbrev main_v49 : Ref sig .tc := ⟨.hbm, 105, rfl⟩
abbrev main_v50 : Ref sig .tc := ⟨.hbm, 106, rfl⟩
abbrev main_c_9 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_cst_10 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_cst_11 : Ref sig .tc := ⟨.hbm, 117, rfl⟩
abbrev main_v59 : Ref sig .tc := ⟨.hbm, 118, rfl⟩
abbrev main_cst_12 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_cst_13 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_cst_14 : Ref sig .tc := ⟨.hbm, 135, rfl⟩
abbrev main_v74 : Ref sig .tc := ⟨.hbm, 136, rfl⟩
abbrev main_cst_15 : Ref sig .tc := ⟨.hbm, 137, rfl⟩
abbrev main_v75 : Ref sig .tc := ⟨.hbm, 138, rfl⟩
abbrev main_v76 : Ref sig .tc := ⟨.hbm, 139, rfl⟩
abbrev main_c_16 : Ref sig .tc := ⟨.hbm, 140, rfl⟩
abbrev main_call2_cst : Ref sig .tc := ⟨.hbm, 141, rfl⟩
abbrev main_call2_v0 : Ref sig .tc := ⟨.hbm, 142, rfl⟩
abbrev main_call2_v1 : Ref sig .tc := ⟨.hbm, 143, rfl⟩
abbrev main_call2_cst_0 : Ref sig .tc := ⟨.hbm, 144, rfl⟩
abbrev main_call2_v2 : Ref sig .tc := ⟨.hbm, 145, rfl⟩
abbrev main_call2_v3 : Ref sig .tc := ⟨.hbm, 146, rfl⟩
abbrev main_call2_v4 : Ref sig .tc := ⟨.hbm, 147, rfl⟩
abbrev main_call2_v5 : Ref sig .tc := ⟨.hbm, 148, rfl⟩
abbrev main_call2_v6 : Ref sig .tc := ⟨.hbm, 149, rfl⟩
abbrev main_call2_v7 : Ref sig .tc := ⟨.hbm, 150, rfl⟩
abbrev main_call2_cst_1 : Ref sig .tc := ⟨.hbm, 151, rfl⟩
abbrev main_call2_v8 : Ref sig .tc := ⟨.hbm, 152, rfl⟩
abbrev main_call2_cst_2 : Ref sig .tc := ⟨.hbm, 153, rfl⟩
abbrev main_call2_v9 : Ref sig .tc := ⟨.hbm, 154, rfl⟩
abbrev main_call2_v10 : Ref sig .tc := ⟨.hbm, 155, rfl⟩
abbrev main_call2_v11 : Ref sig .tc := ⟨.hbm, 156, rfl⟩
abbrev main_call2_cst_3 : Ref sig .tc := ⟨.hbm, 157, rfl⟩
abbrev main_call2_v12 : Ref sig .tc := ⟨.hbm, 158, rfl⟩
abbrev main_call2_cst_4 : Ref sig .tc := ⟨.hbm, 159, rfl⟩
abbrev main_call2_call0_v0 : Ref sig .tc := ⟨.hbm, 160, rfl⟩
abbrev main_call2_call0_v1 : Ref sig .tc := ⟨.hbm, 161, rfl⟩
abbrev main_v77 : Ref sig .tc := ⟨.hbm, 162, rfl⟩
abbrev main_v78 : Ref sig .tc := ⟨.hbm, 163, rfl⟩
abbrev main_v79 : Ref sig .tc := ⟨.hbm, 164, rfl⟩
abbrev main_v80 : Ref sig .tc := ⟨.hbm, 165, rfl⟩
abbrev main_cst_17 : Ref sig .tc := ⟨.hbm, 166, rfl⟩
abbrev main_v81 : Ref sig .tc := ⟨.hbm, 167, rfl⟩
abbrev main_v82 : Ref sig .tc := ⟨.hbm, 168, rfl⟩
abbrev main_v83 : Ref sig .tc := ⟨.hbm, 169, rfl⟩
abbrev main_v84 : Ref sig .tc := ⟨.hbm, 170, rfl⟩
abbrev main_v85 : Ref sig .tc := ⟨.hbm, 171, rfl⟩
abbrev main_v86 : Ref sig .tc := ⟨.hbm, 172, rfl⟩
abbrev main_v87 : Ref sig .tc := ⟨.hbm, 173, rfl⟩
abbrev main_v88 : Ref sig .tc := ⟨.hbm, 174, rfl⟩
abbrev main_v89 : Ref sig .tc := ⟨.hbm, 175, rfl⟩
abbrev main_v90 : Ref sig .tc := ⟨.hbm, 176, rfl⟩
abbrev main_v91 : Ref sig .tc := ⟨.hbm, 177, rfl⟩
abbrev main_v92 : Ref sig .tc := ⟨.hbm, 178, rfl⟩
abbrev main_call3_cst : Ref sig .tc := ⟨.hbm, 179, rfl⟩
abbrev main_call3_v0 : Ref sig .tc := ⟨.hbm, 180, rfl⟩
abbrev main_v93 : Ref sig .tc := ⟨.hbm, 181, rfl⟩
abbrev main_c_18 : Ref sig .tc := ⟨.hbm, 182, rfl⟩
abbrev main_v94 : Ref sig .tc := ⟨.hbm, 183, rfl⟩
abbrev main_v95 : Ref sig .tc := ⟨.hbm, 184, rfl⟩
abbrev main_c_19 : Ref sig .tc := ⟨.hbm, 185, rfl⟩
abbrev main_v96 : Ref sig .tc := ⟨.hbm, 186, rfl⟩
abbrev main_v97 : Ref sig .tc := ⟨.hbm, 187, rfl⟩
abbrev main_v98 : Ref sig .tc := ⟨.hbm, 188, rfl⟩
abbrev main_v99 : Ref sig .tc := ⟨.hbm, 189, rfl⟩
abbrev main_v100 : Ref sig .tc := ⟨.hbm, 190, rfl⟩
abbrev main_cst_20 : Ref sig .tc := ⟨.hbm, 191, rfl⟩
abbrev main_v101 : Ref sig .tc := ⟨.hbm, 192, rfl⟩
abbrev main_v102 : Ref sig .tc := ⟨.hbm, 193, rfl⟩
abbrev main_v103 : Ref sig .tc := ⟨.hbm, 194, rfl⟩
abbrev main_cst_21 : Ref sig .tc := ⟨.hbm, 195, rfl⟩
abbrev main_v104 : Ref sig .tc := ⟨.hbm, 196, rfl⟩
abbrev main_cst_22 : Ref sig .tc := ⟨.hbm, 197, rfl⟩
abbrev main_v105 : Ref sig .tc := ⟨.hbm, 198, rfl⟩
abbrev main_v106 : Ref sig .tc := ⟨.hbm, 199, rfl⟩
abbrev main_v107 : Ref sig .tc := ⟨.hbm, 200, rfl⟩
abbrev main_cst_23 : Ref sig .tc := ⟨.hbm, 201, rfl⟩
abbrev main_v108 : Ref sig .tc := ⟨.hbm, 202, rfl⟩
abbrev main_v109 : Ref sig .tc := ⟨.hbm, 203, rfl⟩
abbrev main_v110 : Ref sig .tc := ⟨.hbm, 204, rfl⟩
abbrev main_v111 : Ref sig .tc := ⟨.hbm, 205, rfl⟩
abbrev main_v112 : Ref sig .tc := ⟨.hbm, 206, rfl⟩
abbrev main_v113 : Ref sig .tc := ⟨.hbm, 207, rfl⟩
abbrev main_v114 : Ref sig .tc := ⟨.hbm, 208, rfl⟩
abbrev main_v115 : Ref sig .tc := ⟨.hbm, 209, rfl⟩
abbrev main_v116 : Ref sig .tc := ⟨.hbm, 210, rfl⟩
abbrev main_v117 : Ref sig .tc := ⟨.hbm, 211, rfl⟩
abbrev main_v118 : Ref sig .tc := ⟨.hbm, 212, rfl⟩
abbrev main_cst_24 : Ref sig .tc := ⟨.hbm, 213, rfl⟩
abbrev main_v119 : Ref sig .tc := ⟨.hbm, 214, rfl⟩
abbrev main_cst_25 : Ref sig .tc := ⟨.hbm, 215, rfl⟩
abbrev main_v120 : Ref sig .tc := ⟨.hbm, 216, rfl⟩
abbrev main_v121 : Ref sig .tc := ⟨.hbm, 217, rfl⟩
abbrev main_c_26 : Ref sig .tc := ⟨.hbm, 218, rfl⟩
abbrev main_call4_cst : Ref sig .tc := ⟨.hbm, 219, rfl⟩
abbrev main_call4_v0 : Ref sig .tc := ⟨.hbm, 220, rfl⟩
abbrev main_call4_v1 : Ref sig .tc := ⟨.hbm, 221, rfl⟩
abbrev main_call4_cst_0 : Ref sig .tc := ⟨.hbm, 222, rfl⟩
abbrev main_call4_v2 : Ref sig .tc := ⟨.hbm, 223, rfl⟩
abbrev main_call4_v3 : Ref sig .tc := ⟨.hbm, 224, rfl⟩
abbrev main_call4_v4 : Ref sig .tc := ⟨.hbm, 225, rfl⟩
abbrev main_call4_v5 : Ref sig .tc := ⟨.hbm, 226, rfl⟩
abbrev main_call4_v6 : Ref sig .tc := ⟨.hbm, 227, rfl⟩
abbrev main_call4_v7 : Ref sig .tc := ⟨.hbm, 228, rfl⟩
abbrev main_call4_cst_1 : Ref sig .tc := ⟨.hbm, 229, rfl⟩
abbrev main_call4_v8 : Ref sig .tc := ⟨.hbm, 230, rfl⟩
abbrev main_call4_cst_2 : Ref sig .tc := ⟨.hbm, 231, rfl⟩
abbrev main_call4_v9 : Ref sig .tc := ⟨.hbm, 232, rfl⟩
abbrev main_call4_v10 : Ref sig .tc := ⟨.hbm, 233, rfl⟩
abbrev main_call4_v11 : Ref sig .tc := ⟨.hbm, 234, rfl⟩
abbrev main_call4_cst_3 : Ref sig .tc := ⟨.hbm, 235, rfl⟩
abbrev main_call4_v12 : Ref sig .tc := ⟨.hbm, 236, rfl⟩
abbrev main_call4_cst_4 : Ref sig .tc := ⟨.hbm, 237, rfl⟩
abbrev main_call4_call0_v0 : Ref sig .tc := ⟨.hbm, 238, rfl⟩
abbrev main_call4_call0_v1 : Ref sig .tc := ⟨.hbm, 239, rfl⟩
abbrev main_v122 : Ref sig .tc := ⟨.hbm, 240, rfl⟩
abbrev main_v123 : Ref sig .tc := ⟨.hbm, 241, rfl⟩
abbrev main_v124 : Ref sig .tc := ⟨.hbm, 242, rfl⟩
abbrev main_v125 : Ref sig .tc := ⟨.hbm, 243, rfl⟩
abbrev main_cst_27 : Ref sig .tc := ⟨.hbm, 244, rfl⟩
abbrev main_v126 : Ref sig .tc := ⟨.hbm, 245, rfl⟩
abbrev main_v127 : Ref sig .tc := ⟨.hbm, 246, rfl⟩
abbrev main_v128 : Ref sig .tc := ⟨.hbm, 247, rfl⟩
abbrev main_v129 : Ref sig .tc := ⟨.hbm, 248, rfl⟩
abbrev main_v130 : Ref sig .tc := ⟨.hbm, 249, rfl⟩
abbrev main_v131 : Ref sig .tc := ⟨.hbm, 250, rfl⟩
abbrev main_v132 : Ref sig .tc := ⟨.hbm, 251, rfl⟩
abbrev main_v133 : Ref sig .tc := ⟨.hbm, 252, rfl⟩
abbrev main_v134 : Ref sig .tc := ⟨.hbm, 253, rfl⟩
abbrev main_v135 : Ref sig .tc := ⟨.hbm, 254, rfl⟩
abbrev main_v136 : Ref sig .tc := ⟨.hbm, 255, rfl⟩
abbrev main_v137 : Ref sig .tc := ⟨.hbm, 256, rfl⟩
abbrev main_call5_cst : Ref sig .tc := ⟨.hbm, 257, rfl⟩
abbrev main_call5_v0 : Ref sig .tc := ⟨.hbm, 258, rfl⟩
abbrev main_v138 : Ref sig .tc := ⟨.hbm, 259, rfl⟩
abbrev main_v139 : Ref sig .tc := ⟨.hbm, 260, rfl⟩
abbrev main_v140 : Ref sig .tc := ⟨.hbm, 261, rfl⟩
abbrev main_v141 : Ref sig .tc := ⟨.hbm, 262, rfl⟩
abbrev main_v142 : Ref sig .tc := ⟨.hbm, 263, rfl⟩
abbrev main_v143 : Ref sig .tc := ⟨.hbm, 264, rfl⟩
abbrev main_v144 : Ref sig .tc := ⟨.hbm, 265, rfl⟩
abbrev main_v145 : Ref sig .tc := ⟨.hbm, 266, rfl⟩
abbrev main_v146 : Ref sig .tc := ⟨.hbm, 267, rfl⟩
abbrev main_call6_cst : Ref sig .tc := ⟨.hbm, 268, rfl⟩
abbrev main_call6_v0 : Ref sig .tc := ⟨.hbm, 269, rfl⟩
abbrev main_call6_cst_0 : Ref sig .tc := ⟨.hbm, 270, rfl⟩
abbrev main_call6_v1 : Ref sig .tc := ⟨.hbm, 271, rfl⟩
abbrev main_call6_v2 : Ref sig .tc := ⟨.hbm, 272, rfl⟩
abbrev main_call6_v3 : Ref sig .tc := ⟨.hbm, 273, rfl⟩
abbrev main_call6_v4 : Ref sig .tc := ⟨.hbm, 274, rfl⟩
abbrev main_call6_v5 : Ref sig .tc := ⟨.hbm, 275, rfl⟩
abbrev main_call6_v6 : Ref sig .tc := ⟨.hbm, 276, rfl⟩
abbrev main_call6_cst_1 : Ref sig .tc := ⟨.hbm, 277, rfl⟩
abbrev main_call6_v7 : Ref sig .tc := ⟨.hbm, 278, rfl⟩
abbrev main_call6_v8 : Ref sig .tc := ⟨.hbm, 279, rfl⟩
abbrev main_call6_v9 : Ref sig .tc := ⟨.hbm, 280, rfl⟩
abbrev main_call6_v10 : Ref sig .tc := ⟨.hbm, 281, rfl⟩
abbrev main_v147 : Ref sig .tc := ⟨.hbm, 282, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  bcast_S100000x1_S100000x40_0_1 : S100000x1.BroadcastsInDim S100000x40 (![0, 1] : Fin 2 → Fin S100000x40.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.Ideal.Stats0.lean ====
import proofs.«176666_j61426622267897_1_alg».proof.Proof.Gen.KernelIdeal.Launch
import proofs.«176666_j61426622267897_1_alg».proof.Proof.Gen.KernelIdeal.Skeleton
import proofs.«176666_j61426622267897_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev condF0 (i : grid0.Coords) : Prop := (Scalar.cmpi .ne (Scalar.extui (Scalar.cmpi .eq (BitVec.ofNat 32 (i 0).val) 0#32)) 0#32) = 1#1
theorem hcondF0 : ∀ t : Fin cfg0.N, condF0 (grid0.coords t) ↔ t.val = 0 :=
  (by decide +kernel : ∀ t : Fin grid0.N, condF0 (grid0.coords t) ↔ t.val = 0)

abbrev condL0 (i : grid0.Coords) : Prop := k0_cond2 i = 1#1
theorem hcondL0 : ∀ t : Fin cfg0.N, condL0 (grid0.coords t) ↔ t.val = 19 :=
  (by decide +kernel : ∀ t : Fin grid0.N, condL0 (grid0.coords t) ↔ t.val = 19)

theorem live0 : ∀ (w : Fin cfg0.W) (t : Fin cfg0.N), w.val ≤ 6 ∨ condL0 (grid0.coords t) → cfg0.idle w (grid0.coords t) = false := by decide +kernel
theorem idle0 : ∀ (w : Fin cfg0.W) (t : Fin cfg0.N), 7 ≤ w.val → ¬condL0 (grid0.coords t) → cfg0.idle w (grid0.coords t) = true ∧ (cfg0.win w).flush t = false := by decide +kernel

abbrev rA0 : Rect S5000x64 := Rect.unit (s := S5000x64) ![0, 0] S5000x64.size inb_S5000x64_S5000x64_0_0
abbrev rD0 : Rect S5000x1 := Rect.unit (s := S5000x1) ![0, 0] S5000x1.size inb_S5000x1_S5000x1_0_0
abbrev rW0 : Rect S64x128 := Rect.unit (s := S64x128) ![0, 0] S64x128.size inb_S64x128_S64x128_0_0
abbrev rB0 : Rect S1x128 := Rect.unit (s := S1x128) ![0, 0] S1x128.size inb_S1x128_S1x128_0_0
abbrev rH0 : Rect S5000x128 := Rect.unit (s := S5000x128) ![0, 0] S5000x128.size inb_S5000x128_S5000x128_0_0

section Block

variable (x0 x1 : Vec F S5000x64 .f32) (x2 : Vec F S5000x1 .f32) (x3 x4 : Vec F S64x128 .f32) (x5 : Vec F S1x128 .f32)

def hval0 : FVec F S5000x128 .f32 :=
  k0_pay4 (View.ld x0 rA0) (View.ld x2 rD0) (View.ld x3 rW0) (View.ld x1 rA0) (View.ld x4 rW0) (View.ld x5 rB0)

def out0_6 : Vec F S5000x128 .f32 :=
  View.canon [⟨rH0, hval0 x0 x1 x2 x3 x4 x5⟩]

def accS0 (s : Vec F S1x128 .f32) : Vec F S1x128 .f32 :=
  View.canon [⟨rB0, k0_pay5 (View.ld x0 rA0) (View.ld x2 rD0) (View.ld x3 rW0) (View.ld x1 rA0) (View.ld x4 rW0) (View.ld x5 rB0) (View.ld s rB0)⟩]

def accQ0 (q : Vec F S1x128 .f32) : Vec F S1x128 .f32 :=
  View.canon [⟨rB0, k0_pay1 (View.ld q rB0) (k0_pay6 (View.ld x0 rA0) (View.ld x2 rD0) (View.ld x3 rW0) (View.ld x1 rA0) (View.ld x4 rW0) (View.ld x5 rB0))⟩]

def zeroS0 : Vec F S1x128 .f32 := View.canon [⟨rB0, (k0_pay2 (F := F))⟩]
def zeroQ0 : Vec F S1x128 .f32 := View.canon [⟨rB0, (k0_pay3 (F := F))⟩]

def copy0 (s : Vec F S1x128 .f32) : Vec F S1x128 .f32 := View.canon [⟨rB0, View.ld s rB0⟩]

theorem coverB0 (p : Vec F S1x128 .f32) (y : S1x128.Idx) :
    ∃ pc ∈ ([⟨rB0, p⟩] : List (View.Piece (Elt F) S1x128 .f32)), y ∈ pc.1.set :=
  View.cover_of_tiled [⟨rB0, p⟩] S1x128.size (by rfl) y
theorem coverH0 (p : Vec F S5000x128 .f32) (y : S5000x128.Idx) :
    ∃ pc ∈ ([⟨rH0, p⟩] : List (View.Piece (Elt F) S5000x128 .f32)), y ∈ pc.1.set :=
  View.cover_of_tiled [⟨rH0, p⟩] S5000x128.size (by rfl) y

-- The accumulators after a block: restarted from zero at the first block, stepped from `s`, `q` at a later one.
def nextS0 (i : grid0.Coords) (s : Vec F S1x128 .f32) : Vec F S1x128 .f32 := accS0 x0 x1 x2 x3 x4 x5 (if condF0 i then zeroS0 else s)
def nextQ0 (i : grid0.Coords) (q : Vec F S1x128 .f32) : Vec F S1x128 .f32 := accQ0 x0 x1 x2 x3 x4 x5 (if condF0 i then zeroQ0 else q)

set_option maxHeartbeats 2000000 in
theorem sound_kernel0 (c : Dev nD) (E : Set ℕ) (i : grid0.Coords) {arg1 arg2 : Memref sig .tc .vmem S5000x64 .f32} {arg3 : Memref sig .tc .vmem S5000x1 .f32} {arg4 arg5 : Memref sig .tc .vmem S64x128 .f32} {arg6 arg8 arg9 arg10 arg11 : Memref sig .tc .vmem S1x128 .f32} {arg7 : Memref sig .tc .vmem S5000x128 .f32}
    (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole)
    (hFL : condF0 i → ¬condL0 i) (x6 : Vec F S5000x128 .f32) (xi7 xi8 s q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare xi7 ∗ owns (c : Thread nD τ) arg9 fullShare xi8
        ∗ owns (c : Thread nD τ) arg10 fullShare s ∗ owns (c : Thread nD τ) arg11 fullShare q
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)
            ∗ (owns (c : Thread nD τ) arg8 fullShare (if condL0 i then copy0 (nextS0 x0 x1 x2 x3 x4 x5 i s) else xi7)
              ∗ owns (c : Thread nD τ) arg9 fullShare (if condL0 i then copy0 (nextQ0 x0 x1 x2 x3 x4 x5 i q) else xi8))
            ∗ owns (c : Thread nD τ) arg10 fullShare (nextS0 x0 x1 x2 x3 x4 x5 i s) ∗ owns (c : Thread nD τ) arg11 fullShare (nextQ0 x0 x1 x2 x3 x4 x5 i q)) -∗ K ⟨⟩))
      ⊢ wp frame (wpE (defs₀ (F := F)) Variants.none c none) E (cc0__sage_linear_stats_kernel i arg1 harg1 arg2 harg2 arg3 harg3 arg4 harg4 arg5 harg5 arg6 harg6 arg7 harg7 arg8 harg8 arg9 harg9 arg10 harg10 arg11 harg11) K := by
  simp only [cc0__sage_linear_stats_kernel_eq_skeleton]; unfold cc0__sage_linear_stats_kernel_skel
  simp only [k0_part1_eq_skeleton]; unfold k0_part1_skel
  unfold nextS0 nextQ0 owns
  by_cases hcF : condF0 i <;> by_cases hcL : condL0 i <;>
    first
    | exact absurd hcL (hFL hcF)
    | simp only [if_pos (hcF : condF0 i), if_neg (hcL : ¬condL0 i)]
    | simp only [if_neg (hcF : ¬condF0 i), if_pos (hcL : condL0 i)]
    | simp only [if_neg (hcF : ¬condF0 i), if_neg (hcL : ¬condL0 i)]
  all_goals
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, -, H6⟩, ⟨%f7, %hf7, H7⟩, ⟨%f8, %hf8, H8⟩, ⟨%fs, %hfs, HS⟩, ⟨%fq, %hfq, HQ⟩, Hk⟩
    subst hf0 hf1 hf2 hf3 hf4 hf5 hf7 hf8 hfs hfq
    sl_exec (disch := first | exact hcF | exact hcL)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists _; isplitr
      swap; · iexact H6
      ipureintro
      exact View.read_writes_eq_canon _ _ _ (coverH0 _)
    isplitl [H7 H8]
    · isplitl [H7] <;>
        (iexists _; isplitr; swap; (first | iexact H7 | iexact H8); ipureintro
         first
         | with_reducible rfl
         | sl_unfold_run_names
           rw [View.readCov_eq_canon_ld _ _ _ (coverB0 _)]
           exact View.read_writes_eq_canon _ _ _ (coverB0 _))
    isplitl [HS] <;>
      (iexists _; isplitr; swap; (first | iexact HS | iexact HQ); ipureintro; sl_unfold_run_names
       first
       | rw [View.readCov_eq_canon_ld _ _ _ (coverB0 _)]
         exact (congrArg (View.read (Elt F) _) (View.writes_append _ _ [_] [_])).trans (View.read_writes_eq_canon _ _ _ (coverB0 _))
       | exact View.read_writes_eq_canon _ _ _ (coverB0 _))

end Block

abbrev scS0 : Memref sig .tc .vmem S1x128 .f32 := Memref.whole cc0_scratch0
abbrev scQ0 : Memref sig .tc .vmem S1x128 .f32 := Memref.whole cc0_scratch1

abbrev rest0 (c : Dev nD) : sProp 𝕄 := Pipeline.scopedRestBut (Ix := Unit) (Name := ℕ) (U := UR sig nD τ) (Lvl := ℕ) (Val := Elt F) spec0 c [cc0_scratch0, cc0_scratch1]

theorem PhiA0_split (c : Dev nD) :
    (Pipeline.ΦA spec0 c : sProp 𝕄)
      = iprop(iprop(iprop((∃ d, owns (c : Thread nD τ) scS0 fullShare d) ∗ (∃ d, owns (c : Thread nD τ) scQ0 fullShare d))
          ∗ rest0 c) ∗ (∃ r, prngReg c r)) := by
  unfold Pipeline.ΦA; rw [scopedRest0_split]; simp only [scS0, scQ0, owns_whole]; try rfl

def hpreAt0 (c : Dev nD) (t : Fin cfg0.N) : Vec F S5000x128 .f32 :=
  out0_6 (iblk0 V c 0 t) (iblk0 V c 1 t) (iblk0 V c 2 t) (iblk0 V c 3 t) (iblk0 V c 4 t) (iblk0 V c 5 t)
def stepS0 (c : Dev nD) (t : Fin cfg0.N) (s : Vec F S1x128 .f32) : Vec F S1x128 .f32 :=
  accS0 (iblk0 V c 0 t) (iblk0 V c 1 t) (iblk0 V c 2 t) (iblk0 V c 3 t) (iblk0 V c 4 t) (iblk0 V c 5 t) s
def stepQ0 (c : Dev nD) (t : Fin cfg0.N) (q : Vec F S1x128 .f32) : Vec F S1x128 .f32 :=
  accQ0 (iblk0 V c 0 t) (iblk0 V c 1 t) (iblk0 V c 2 t) (iblk0 V c 3 t) (iblk0 V c 4 t) (iblk0 V c 5 t) q

def accAt0 (c : Dev nD) : (n : ℕ) → n < cfg0.N → Vec F S1x128 .f32 × Vec F S1x128 .f32
  | 0, hn => (stepS0 V c ⟨0, hn⟩ zeroS0, stepQ0 V c ⟨0, hn⟩ zeroQ0)
  | n + 1, hn => (stepS0 V c ⟨n + 1, hn⟩ (accAt0 c n (Nat.lt_of_succ_lt hn)).1, stepQ0 V c ⟨n + 1, hn⟩ (accAt0 c n (Nat.lt_of_succ_lt hn)).2)

theorem accAt0_zero (c : Dev nD) (hn : 0 < cfg0.N) :
    accAt0 V c 0 hn = (stepS0 V c ⟨0, hn⟩ zeroS0, stepQ0 V c ⟨0, hn⟩ zeroQ0) := rfl
theorem accAt0_succ (c : Dev nD) (n : ℕ) (hn : n + 1 < cfg0.N) :
    accAt0 V c (n + 1) hn = (stepS0 V c ⟨n + 1, hn⟩ (accAt0 V c n (Nat.lt_of_succ_lt hn)).1, stepQ0 V c ⟨n + 1, hn⟩ (accAt0 V c n (Nat.lt_of_succ_lt hn)).2) := rfl

-- The running sums after point `t` are one block's step from those after the point before, or from zero at the first point.
theorem accAt0_step (c : Dev nD) (t : Fin cfg0.N) (a : Vec F S1x128 .f32 × Vec F S1x128 .f32)
    (ha : ∀ m (hm : m + 1 = t.val), a = accAt0 V c m (by have := t.isLt; omega)) :
    accAt0 V c t.val t.isLt = (nextS0 (iblk0 V c 0 t) (iblk0 V c 1 t) (iblk0 V c 2 t) (iblk0 V c 3 t) (iblk0 V c 4 t) (iblk0 V c 5 t) (grid0.coords t) a.1, nextQ0 (iblk0 V c 0 t) (iblk0 V c 1 t) (iblk0 V c 2 t) (iblk0 V c 3 t) (iblk0 V c 4 t) (iblk0 V c 5 t) (grid0.coords t) a.2) := by
  obtain ⟨n, hn⟩ := t
  unfold nextS0 nextQ0
  cases n with
  | zero =>
    have h : condF0 (grid0.coords ⟨0, hn⟩) := (hcondF0 _).mpr rfl
    rw [if_pos h, if_pos h]; rfl
  | succ n =>
    have h : ¬condF0 (grid0.coords ⟨n + 1, hn⟩) := fun h => Nat.succ_ne_zero n ((hcondF0 _).mp h)
    rw [if_neg h, if_neg h, ha n rfl]; rfl

def outsAt0 (c : Dev nD) (n : ℕ) (hn : n < cfg0.N) :
    Vec F S5000x128 .f32 × Vec F S1x128 .f32 × Vec F S1x128 .f32 × Vec F S1x128 .f32 × Vec F S1x128 .f32 :=
  (hpreAt0 V c ⟨n, hn⟩, copy0 (accAt0 V c n hn).1, copy0 (accAt0 V c n hn).2, (accAt0 V c n hn).1, (accAt0 V c n hn).2)

def PhiN0 (c : Dev nD) (a : Vec F S1x128 .f32 × Vec F S1x128 .f32) : sProp 𝕄 :=
  iprop(iprop(iprop(owns (c : Thread nD τ) scS0 fullShare a.1 ∗ owns (c : Thread nD τ) scQ0 fullShare a.2)
      ∗ rest0 c) ∗ (∃ r, prngReg c r))

-- Before point `n` the accumulators hold some `a`, which after the first point is the running sums so far.
def PhiS0 (c : Dev nD) (n : ℕ) (h : n ≤ cfg0.N) : sProp 𝕄 :=
  iprop(∃ a, ⌜∀ m (hm : m + 1 = n), a = accAt0 V c m (by omega)⌝ ∗ PhiN0 c a)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
    | ⟨8, _⟩ => (outsAt0 V c t.val t.isLt).2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_in (c : Dev nD) (t : Fin cfg0.N) : (dat0 V c).after 0 t = iblk0 V c 0 t ∧ (dat0 V c).after 1 t = iblk0 V c 1 t ∧ (dat0 V c).after 2 t = iblk0 V c 2 t
    ∧ (dat0 V c).after 3 t = iblk0 V c 3 t ∧ (dat0 V c).after 4 t = iblk0 V c 4 t ∧ (dat0 V c).after 5 t = iblk0 V c 5 t := by
  dsimp only [dat0]; exact ⟨rfl, rfl, rfl, rfl, rfl, rfl⟩
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]
theorem after0_8 (c : Dev nD) (t : Fin cfg0.N) : (dat0 V c).after 8 t = (outsAt0 V c t.val t.isLt).2.2.1 := by dsimp only [dat0]

theorem before0_in (c : Dev nD) (t : Fin cfg0.N) : (∀ d, (dat0 V c).before 0 t d = iblk0 V c 0 t) ∧ (∀ d, (dat0 V c).before 1 t d = iblk0 V c 1 t) ∧ (∀ d, (dat0 V c).before 2 t d = iblk0 V c 2 t)
    ∧ (∀ d, (dat0 V c).before 3 t d = iblk0 V c 3 t) ∧ (∀ d, (dat0 V c).before 4 t d = iblk0 V c 4 t) ∧ (∀ d, (dat0 V c).before 5 t d = iblk0 V c 5 t) := by
  refine ⟨?_, ?_, ?_, ?_, ?_, ?_⟩ <;> intro d <;>
    exact (Dat.before_in_eq_fetched (dat0 V c) _ rfl (fun _ => rfl) (fun _ _ _ => rfl) (fun t => by dsimp only [dat0, Dat.blockOf, iblk0]; try rfl) t d).trans
      (by dsimp only [dat0, Dat.fetched, Dat.blockOf, iblk0]; try rfl)

theorem outsAt0_fst (c : Dev nD) (t : Fin cfg0.N) : (outsAt0 V c t.val t.isLt).1 = hpreAt0 V c t := by
  obtain ⟨n, hn⟩ := t
  unfold outsAt0
  dsimp only

theorem leaves0 (c : Dev nD) (t : Fin cfg0.N) (w : Fin cfg0.W) (hw : w.val ≤ 6) :
    (dat0 V c).leavesExact w t = owns (c : Thread nD τ) ((cfg0.win w).stage (cfg0.slots t w)) fullShare ((dat0 V c).after w t) := by
  unfold Dat.leavesExact; rw [live0 w t (.inl hw)]

theorem leaves0_acc (c : Dev nD) (t : Fin cfg0.N) (w : Fin cfg0.W) (hw : 7 ≤ w.val) (d) :
    owns (c : Thread nD τ) ((cfg0.win w).stage (cfg0.slots t w)) fullShare (if condL0 (grid0.coords t) then (dat0 V c).after w t else (dat0 V c).before w t d)
      ⊢ (dat0 V c).leavesExact w t := by
  by_cases h : condL0 (grid0.coords t)
  · rw [if_pos h]; unfold Dat.leavesExact; rw [live0 w t (.inr h)]
  · rw [if_neg h, Dat.leavesExact_idle _ w t (idle0 w t hw h).1 (idle0 w t hw h).2]; iintro H; iexists d; iexact H

def pre0 (c : Dev nD) (t : Fin cfg0.N) (w : Fin cfg0.W) : sProp 𝕄 :=
  iprop(∃ d, owns (c : Thread nD τ) ((cfg0.win w).stage (cfg0.slots t w)) fullShare ((dat0 V c).before w t d))

def bodyPre0 (c : Dev nD) (t : Fin cfg0.N) : sProp 𝕄 :=
  iprop((dat0 V c).Φ t.castSucc ∗ (dat0 V c).owesAt () t.castSucc
    ∗ pre0 V c t 0 ∗ pre0 V c t 1 ∗ pre0 V c t 2 ∗ pre0 V c t 3 ∗ pre0 V c t 4 ∗ pre0 V c t 5 ∗ pre0 V c t 6 ∗ pre0 V c t 7 ∗ pre0 V c t 8)

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t ∗ (dat0 V c).leavesExact 4 t ∗ (dat0 V c).leavesExact 5 t ∗ (dat0 V c).leavesExact 6 t ∗ (dat0 V c).leavesExact 7 t ∗ (dat0 V c).leavesExact 8 t)

set_option maxHeartbeats 2000000 in
theorem sound_body0 (c : Dev nD) (t : Fin cfg0.N) :
    bodyPre0 V c t ⊢ wp frame (wpE (defs₀ (F := F)) Variants.none c none) Set.univ (bodyAt0 t) (fun _ => bodyPost0 V c t) := by
  obtain ⟨b0, b1, b2, b3, b4, b5⟩ := before0_in V c t
  obtain ⟨a0, a1, a2, a3, a4, a5⟩ := after0_in V c t
  unfold bodyPre0 bodyPost0 pre0 bodyAt0
  simp only [b0, b1, b2, b3, b4, b5]
  rw [show (dat0 V c).owesAt () t.succ = (dat0 V c).owesAt () t.castSucc from rfl,
    show (dat0 V c).Φ t.succ = PhiS0 V c (t.val + 1) t.isLt from rfl,
    show (dat0 V c).Φ t.castSucc = PhiS0 V c t.val (Nat.le_of_lt t.isLt) from rfl,
    leaves0 V c t 0 (by decide), leaves0 V c t 1 (by decide), leaves0 V c t 2 (by decide), leaves0 V c t 3 (by decide),
    leaves0 V c t 4 (by decide), leaves0 V c t 5 (by decide), leaves0 V c t 6 (by decide), a0, a1, a2, a3, a4, a5, after0_6, outsAt0_fst]
  unfold PhiS0 PhiN0 hpreAt0
  iintro ⟨⟨%a, %ha, ⟨⟨HS, HQ⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 (iblk0 V c 0 t) (iblk0 V c 1 t) (iblk0 V c 2 t) (iblk0 V c 3 t) (iblk0 V c 4 t) (iblk0 V c 5 t) c Set.univ (grid0.coords t) _ _ _ _ _ _ _ _ _ _ _
    (fun hF hL => by have := (hcondF0 t).mp hF; have := (hcondL0 t).mp hL; omega) _ ((dat0 V c).before 7 t d7) ((dat0 V c).before 8 t d8) a.1 a.2 _)
  obtain ⟨hS, hQ⟩ := Prod.ext_iff.mp (accAt0_step V c t a ha)
  dsimp only at hS hQ
  rw [← hS, ← hQ]
  iframe H0 H1 H2 H3 H4 H5 H6 H7 H8 HS HQ
  iintro ⟨H0, H1, H2, H3, H4, H5, H6, ⟨H7, H8⟩, HS, HQ⟩
  iframe Ho H0 H1 H2 H3 H4 H5 H6
  isplitl [HS HQ Hr Hg]
  · iexists _; isplitr
    · ipureintro; intro m hm; cases hm; rfl
    iframe
  isplitl [H7]
  · iapply (leaves0_acc V c t 7 (by decide) d7); iexact H7
  iapply (leaves0_acc V c t 8 (by decide) d8); iexact H8

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiA0_split]
  unfold PhiS0 PhiN0
  iintro ⟨⟨⟨⟨%s, HS⟩, ⟨%q, HQ⟩⟩, Hr⟩, Hg⟩
  iexists (s, q); isplitr
  · ipureintro; intro m hm; exact absurd hm (Nat.succ_ne_zero m)
  iframe

theorem hout0 (c : Dev nD) : (dat0 V c).Φ (Fin.last cfg0.N) ⊢ Pipeline.ΦA spec0 c := by
  rw [show (dat0 V c).Φ (Fin.last cfg0.N) = PhiS0 V c cfg0.N (Nat.le_refl _) from rfl, PhiA0_split]
  unfold PhiS0 PhiN0
  iintro ⟨%a, -, ⟨⟨HS, HQ⟩, Hr⟩, Hg⟩
  iframe Hr Hg
  isplitl [HS]
  · iexists _; iexact HS
  iexists _; iexact HQ

end Region0

end Cert.KernelIdeal.Hand

end
-- ==== Proof.Ideal.Bn1.lean ====
import proofs.«176666_j61426622267897_1_alg».proof.Proof.Gen.KernelIdeal.Launch
import proofs.«176666_j61426622267897_1_alg».proof.Proof.Gen.KernelIdeal.Skeleton
import proofs.«176666_j61426622267897_1_alg».proof.Proof.Gen.KernelIdeal.Points
import Idealize.ShloMosaic.Lib.Pipeline.FrameBody
import Idealize.ShloMosaic.Lib.Pipeline.TableIdle
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S5000x128 := Rect.unit (s := S5000x128) ![0, 0] S5000x128.size inb_S5000x128_S5000x128_0_0
abbrev r1_1 : Rect S1x128 := Rect.unit (s := S1x128) ![0, 0] S1x128.size inb_S1x128_S1x128_0_0

def out1_5 (x0 : Vec F S5000x128 .f32) (x1 x2 x3 x4 : Vec F S1x128 .f32) : Vec F S5000x128 .f32 :=
  View.canon [⟨r1_0, k1_pay1 (View.ld x0 r1_0) (View.ld x1 r1_1) (View.ld x2 r1_1) (View.ld x3 r1_1) (View.ld x4 r1_1)⟩]

set_option maxHeartbeats 4000000 in
-- A write that covers the whole shape determines the contents, whatever they were before.
theorem sound_kernel1 {c : Dev nD} {i : grid1.Coords} {a1 a6 : Memref sig .tc .vmem S5000x128 .f32} {a2 a3 a4 a5 : Memref sig .tc .vmem S1x128 .f32}
    {h1 : a1.IsWhole} {h2 : a2.IsWhole} {h3 : a3.IsWhole} {h4 : a4.IsWhole} {h5 : a5.IsWhole} {h6 : a6.IsWhole}
    {x0 y : Vec F S5000x128 .f32} {x1 x2 x3 x4 : Vec F S1x128 .f32} {P Q : sProp 𝕄} :
    iprop(P ∗ Q ∗ owns c.tc a1 fullShare x0 ∗ owns c.tc a2 fullShare x1 ∗ owns c.tc a3 fullShare x2
        ∗ owns c.tc a4 fullShare x3 ∗ owns c.tc a5 fullShare x4 ∗ owns c.tc a6 fullShare y)
      ⊢ wp frame (wpE (defs₀ (F := F)) Variants.none c none) Set.univ (cc1__bn_relu_kernel i a1 h1 a2 h2 a3 h3 a4 h4 a5 h5 a6 h6)
          fun _ => iprop(P ∗ Q ∗ owns c.tc a1 fullShare x0 ∗ owns c.tc a2 fullShare x1 ∗ owns c.tc a3 fullShare x2
        ∗ owns c.tc a4 fullShare x3 ∗ owns c.tc a5 fullShare x4 ∗ owns c.tc a6 fullShare (out1_5 x0 x1 x2 x3 x4)) := by
  simp only [cc1__bn_relu_kernel_eq_skeleton]; unfold cc1__bn_relu_kernel_skel
  rw [owns_eq_rep c.tc a1, owns_eq_rep c.tc a2, owns_eq_rep c.tc a3, owns_eq_rep c.tc a4, owns_eq_rep c.tc a5]
  unfold owns
  iintro ⟨HP, HQ, H0, H1, H2, H3, H4, %g, -, H5⟩
  sl_exec
  sl_step
  iframe HP HQ H0 H1 H2 H3 H4
  iexists _; isplitr
  swap; · iexact H5
  ipureintro
  simp only [View.readAt_rep]
  exact View.read_writes_eq_canon _ _ _ (View.cover_of_tiled _ S5000x128.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1 (c : Dev nD) (t : Fin cfg1.N) : ∀ w : Fin cfg1.W, (cfg1.win w).isOut = false → ∀ d, (dat1 V c).before w t d = (dat1 V c).after w t
  | ⟨0, _⟩, _, d | ⟨1, _⟩, _, d | ⟨2, _⟩, _, d | ⟨3, _⟩, _, d | ⟨4, _⟩, _, d =>
    (dat1 V c).before_in_eq_fetched _ rfl (fun _ => rfl) (fun _ _ _ => rfl) (fun _ => rfl) t d
  | ⟨5, _⟩, h, _ => nomatch h

theorem body_obligation1 (c : Dev nD) : BodyObligation (dat1 (F := F) V c) (defs₀ (F := F)) Variants.none () Set.univ := fun t => by
  rw [bigSep_W1, bigSep_W1]
  dsimp only
  show _ ⊢ wp _ _ _ (bodyAt1 t) fun _ => iprop((dat1 V c).Φ t.castSucc ∗ (dat1 V c).owesAt () t.castSucc ∗ _)
  iintro ⟨HΦ, Ho, ⟨%d0, H0⟩, ⟨%d1, H1⟩, ⟨%d2, H2⟩, ⟨%d3, H3⟩, ⟨%d4, H4⟩, ⟨%d5, H5⟩⟩
  rw [before1 V c t 0 rfl, before1 V c t 1 rfl, before1 V c t 2 rfl, before1 V c t 3 rfl, before1 V c t 4 rfl, after1_5]
  iapply sound_kernel1
  dsimp only
  iframe

end Region1

end Cert.KernelIdeal.Hand
-- ==== Proof.Ideal.Mlp6.lean ====
import proofs.«176666_j61426622267897_1_alg».proof.Proof.Gen.KernelIdeal.Launch
import proofs.«176666_j61426622267897_1_alg».proof.Proof.Gen.KernelIdeal.Skeleton
import proofs.«176666_j61426622267897_1_alg».proof.Proof.Gen.KernelIdeal.Points
import Idealize.ShloMosaic.Lib.Pipeline.FrameBody
import Idealize.ShloMosaic.Lib.Pipeline.TableIdle
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region6
variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S5000x128 := Rect.unit (s := S5000x128) ![0, 0] S5000x128.size inb_S5000x128_S5000x128_0_0
abbrev r6_1 : Rect S128x128 := Rect.unit (s := S128x128) ![0, 0] S128x128.size inb_S128x128_S128x128_0_0
abbrev r6_2 : Rect S1x128 := Rect.unit (s := S1x128) ![0, 0] S1x128.size inb_S1x128_S1x128_0_0
abbrev r6_3 : Rect S128x40 := Rect.unit (s := S128x40) ![0, 0] S128x40.size inb_S128x40_S128x40_0_0
abbrev r6_4 : Rect S1x40 := Rect.unit (s := S1x40) ![0, 0] S1x40.size inb_S1x40_S1x40_0_0
abbrev r6_5 : Rect S5000x40 := Rect.unit (s := S5000x40) ![0, 0] S5000x40.size inb_S5000x40_S5000x40_0_0

def out6_5 (x0 : Vec F S5000x128 .f32) (x1 : Vec F S128x128 .f32) (x2 : Vec F S1x128 .f32) (x3 : Vec F S128x40 .f32) (x4 : Vec F S1x40 .f32) : Vec F S5000x40 .f32 :=
  View.canon [⟨r6_5, k6_pay1 (View.ld x0 r6_0) (View.ld x1 r6_1) (View.ld x2 r6_2) (View.ld x3 r6_3) (View.ld x4 r6_4)⟩]

set_option maxHeartbeats 1000000 in
-- A write that covers the whole shape determines the contents, whatever they were before.
theorem sound_kernel6 {c : Dev nD} {i : grid6.Coords} {a1 : Memref sig .tc .vmem S5000x128 .f32} {a2 : Memref sig .tc .vmem S128x128 .f32}
    {a3 : Memref sig .tc .vmem S1x128 .f32} {a4 : Memref sig .tc .vmem S128x40 .f32} {a5 : Memref sig .tc .vmem S1x40 .f32} {a6 : Memref sig .tc .vmem S5000x40 .f32}
    {h1 : a1.IsWhole} {h2 : a2.IsWhole} {h3 : a3.IsWhole} {h4 : a4.IsWhole} {h5 : a5.IsWhole} {h6 : a6.IsWhole}
    {x0 : Vec F S5000x128 .f32} {x1 : Vec F S128x128 .f32} {x2 : Vec F S1x128 .f32} {x3 : Vec F S128x40 .f32} {x4 : Vec F S1x40 .f32} {y : Vec F S5000x40 .f32}
    {P Q : sProp 𝕄} :
    iprop(P ∗ Q ∗ owns c.tc a1 fullShare x0 ∗ owns c.tc a2 fullShare x1 ∗ owns c.tc a3 fullShare x2
        ∗ owns c.tc a4 fullShare x3 ∗ owns c.tc a5 fullShare x4 ∗ owns c.tc a6 fullShare y)
      ⊢ wp frame (wpE (defs₀ (F := F)) Variants.none c none) Set.univ (cc6__mlp_head_kernel i a1 h1 a2 h2 a3 h3 a4 h4 a5 h5 a6 h6)
          fun _ => iprop(P ∗ Q ∗ owns c.tc a1 fullShare x0 ∗ owns c.tc a2 fullShare x1 ∗ owns c.tc a3 fullShare x2
        ∗ owns c.tc a4 fullShare x3 ∗ owns c.tc a5 fullShare x4 ∗ owns c.tc a6 fullShare (out6_5 x0 x1 x2 x3 x4)) := by
  simp only [cc6__mlp_head_kernel_eq_skeleton]; unfold cc6__mlp_head_kernel_skel
  rw [owns_eq_rep c.tc a1, owns_eq_rep c.tc a2, owns_eq_rep c.tc a3, owns_eq_rep c.tc a4, owns_eq_rep c.tc a5]
  unfold owns
  iintro ⟨HP, HQ, H0, H1, H2, H3, H4, %g, -, H5⟩
  sl_exec
  sl_step
  iframe HP HQ H0 H1 H2 H3 H4
  iexists _; isplitr
  swap; · iexact H5
  ipureintro
  simp only [View.readAt_rep]
  exact View.read_writes_eq_canon _ _ _ (View.cover_of_tiled _ S5000x40.size (by rfl))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_5 (c : Dev nD) (t : Fin cfg6.N) :
    (dat6 V c).after 5 t = out6_5 (iblk6 V c 0 t) (iblk6 V c 1 t) (iblk6 V c 2 t) (iblk6 V c 3 t) (iblk6 V c 4 t) := by dsimp only [dat6]

theorem before6 (c : Dev nD) (t : Fin cfg6.N) : ∀ w : Fin cfg6.W, (cfg6.win w).isOut = false → ∀ d, (dat6 V c).before w t d = (dat6 V c).after w t
  | ⟨0, _⟩, _, d | ⟨1, _⟩, _, d | ⟨2, _⟩, _, d | ⟨3, _⟩, _, d | ⟨4, _⟩, _, d =>
    (dat6 V c).before_in_eq_fetched _ rfl (fun _ => rfl) (fun _ _ _ => rfl) (fun _ => rfl) t d
  | ⟨5, _⟩, h, _ => nomatch h

theorem body_obligation6 (c : Dev nD) : BodyObligation (dat6 (F := F) V c) (defs₀ (F := F)) Variants.none () Set.univ := fun t => by
  rw [bigSep_W6, bigSep_W6]
  dsimp only
  show _ ⊢ wp _ _ _ (bodyAt6 t) fun _ => iprop((dat6 V c).Φ t.castSucc ∗ (dat6 V c).owesAt () t.castSucc ∗ _)
  iintro ⟨HΦ, Ho, ⟨%d0, H0⟩, ⟨%d1, H1⟩, ⟨%d2, H2⟩, ⟨%d3, H3⟩, ⟨%d4, H4⟩, ⟨%d5, H5⟩⟩
  rw [before6 V c t 0 rfl, before6 V c t 1 rfl, before6 V c t 2 rfl, before6 V c t 3 rfl, before6 V c t 4 rfl, after6_5]
  iapply sound_kernel6
  dsimp only
  iframe

end Region6

end Cert.KernelIdeal.Hand
-- ==== Proof.Ideal.Run.lean ====
import proofs.«176666_j61426622267897_1_alg».proof.Proof.Ideal.Stats0
import proofs.«176666_j61426622267897_1_alg».proof.Proof.Ideal.Bn1
import proofs.«176666_j61426622267897_1_alg».proof.Proof.Ideal.Stats2
import proofs.«176666_j61426622267897_1_alg».proof.Proof.Ideal.Bn3
import proofs.«176666_j61426622267897_1_alg».proof.Proof.Ideal.Stats4
import proofs.«176666_j61426622267897_1_alg».proof.Proof.Ideal.Bn5
import proofs.«176666_j61426622267897_1_alg».proof.Proof.Ideal.Mlp6
import proofs.«176666_j61426622267897_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N :=
  Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N :=
  Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) :=
  Pipeline.withArrays_of_ne spec1 c _ _ b hb
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N :=
  Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) :=
  Pipeline.withArrays_of_ne spec2 c _ _ b hb
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hw _).trans (A_eq2 (V5 m ρ) c w))

abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N :=
  Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) :=
  Pipeline.withArrays_of_ne spec3 c _ _ b hb
theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h
theorem W8_in (c : Dev nD) (w : Fin cfg3.W) (hw : (cfg3.win w).isOut = false) :
    W8 m ρ c (Proc.devRef .tc (Pipeline.arrRef spec3 w)) = W7 m ρ c (Proc.devRef .tc (Pipeline.arrRef spec3 w)) :=
  (W8_arr m ρ c w).trans (((dat3 (V7 m ρ) c).arrAt_in w hw _).trans (A_eq3 (V7 m ρ) c w))

abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N :=
  Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) :=
  Pipeline.withArrays_of_ne spec4 c _ _ b hb
theorem W9_of (c : Dev nD) (r : Ref sig .tc) (h : r ∉ hostOps4_W) :
    W9 m ρ c (Proc.devRef .tc r) = W8 m ρ c (Proc.devRef .tc r) :=
  StableHlo.after_of_writes_sub hostOps4 _ hostOps4_writes h
theorem W10_in (c : Dev nD) (w : Fin cfg4.W) (hw : (cfg4.win w).isOut = false) :
    W10 m ρ c (Proc.devRef .tc (Pipeline.arrRef spec4 w)) = W9 m ρ c (Proc.devRef .tc (Pipeline.arrRef spec4 w)) :=
  (W10_arr m ρ c w).trans (((dat4 (V9 m ρ) c).arrAt_in w hw _).trans (A_eq4 (V9 m ρ) c w))

abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N :=
  Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) :=
  Pipeline.withArrays_of_ne spec5 c _ _ b hb
theorem W11_of (c : Dev nD) (r : Ref sig .tc) (h : r ∉ hostOps5_W) :
    W11 m ρ c (Proc.devRef .tc r) = W10 m ρ c (Proc.devRef .tc r) :=
  StableHlo.after_of_writes_sub hostOps5 _ hostOps5_writes h
theorem W12_in (c : Dev nD) (w : Fin cfg5.W) (hw : (cfg5.win w).isOut = false) :
    W12 m ρ c (Proc.devRef .tc (Pipeline.arrRef spec5 w)) = W11 m ρ c (Proc.devRef .tc (Pipeline.arrRef spec5 w)) :=
  (W12_arr m ρ c w).trans (((dat5 (V11 m ρ) c).arrAt_in w hw _).trans (A_eq5 (V11 m ρ) c w))

abbrev W13 : Dev nD → Valuation τ sig (Elt F) := fun c => StableHlo.after hostOps6 (W12 m ρ c)
abbrev V13 : (c : Dev nD) → (b : Ref sig .tc) → Buf (Elt F) ((c : Thread nD τ).loc b) := fun c b => W13 m ρ c b
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N :=
  Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) :=
  Pipeline.withArrays_of_ne spec6 c _ _ b hb
theorem W13_of (c : Dev nD) (r : Ref sig .tc) (h : r ∉ hostOps6_W) :
    W13 m ρ c (Proc.devRef .tc r) = W12 m ρ c (Proc.devRef .tc r) :=
  StableHlo.after_of_writes_sub hostOps6 _ hostOps6_writes h

abbrev keptBy (ws : List (Ref sig .tc)) (cfg : Pipeline.Cfg sig Λ₀) (r : Ref sig .tc) : Prop :=
  r ∉ ws ∧ ∀ w, Pipeline.arrRef cfg.spec w = r → (cfg.win w).isOut = false

-- By cases on r being an array of the region: an input array keeps its entry contents, any other reference is not touched.
theorem keep_step {cfg : Pipeline.Cfg sig Λ₀} {c : Dev nD} (d : Dat τ (Elt F) Unit ℕ (UR sig nD τ) ℕ cfg c)
    (hinj : Function.Injective (Pipeline.arrRef cfg.spec)) {ops : List (HloOp τ sig (Elt F))} {ws : List (Ref sig .tc)}
    (hws : ops.Forall fun op => op.writes ⊆ (ws.map (Proc.devRef (τ := τ) .tc)).toFinset) (W : Valuation τ sig (Elt F))
    (hA : ∀ w, d.A w = StableHlo.after ops W (Proc.devRef .tc (Pipeline.arrRef cfg.spec w))) {r : Ref sig .tc} (h : keptBy ws cfg r) :
    Pipeline.withArrays cfg.spec c (StableHlo.after ops W) (fun w => d.arrAt w cfg.N) (Proc.devRef .tc r) = W (Proc.devRef .tc r) := by
  refine Eq.trans ?_ (StableHlo.after_of_writes_sub ops W hws h.1)
  by_cases hr : ∃ w, Pipeline.arrRef cfg.spec w = r
  · obtain ⟨w, rfl⟩ := hr
    exact (Pipeline.withArrays_arr _ hinj c _ _ w).trans ((d.arrAt_in w (h.2 w rfl) _).trans (hA w))
  · exact Pipeline.withArrays_of_ne _ c _ _ r fun w e => hr ⟨w, e⟩

abbrev Kept (r : Ref sig .tc) : Prop :=
  ¬ (Proc.devRef .tc r : DevRef τ sig).isScoped ∧ keptBy hostOps0_W cfg0 r ∧ keptBy hostOps1_W cfg1 r ∧ keptBy hostOps2_W cfg2 r ∧ keptBy hostOps3_W cfg3 r ∧ keptBy hostOps4_W cfg4 r ∧ keptBy hostOps5_W cfg5 r ∧ keptBy hostOps6_W cfg6 r

-- Seven uses of keep_step walk the last contents at r back to the launch memory.
theorem kept_end (c : Dev nD) {s : MemSt nD τ sig (Elt F)} (h : ∀ b ∈ Pipeline.ucRefs τ sig, s.mem ((c : Thread nD τ).1, b) = W14 m ρ c b)
    {r : Ref sig .tc} : Kept r → s.mem ((c : Thread nD τ).loc r) = m ((c : Thread nD τ).loc r)
  | ⟨hu, h0, h1, h2, h3, h4, h5, h6⟩ =>
    (h _ (Finset.mem_filter.mpr ⟨StableHlo.devRef_mem_tcRefs r, hu⟩)).trans <|
    (keep_step (dat6 (V13 m ρ) c) launch6.win.arr_inj hostOps6_writes _ (A_eq6 _ c) h6).trans <|
    (keep_step (dat5 (V11 m ρ) c) launch5.win.arr_inj hostOps5_writes _ (A_eq5 _ c) h5).trans <|
    (keep_step (dat4 (V9 m ρ) c) launch4.win.arr_inj hostOps4_writes _ (A_eq4 _ c) h4).trans <|
    (keep_step (dat3 (V7 m ρ) c) launch3.win.arr_inj hostOps3_writes _ (A_eq3 _ c) h3).trans <|
    (keep_step (dat2 (V5 m ρ) c) launch2.win.arr_inj hostOps2_writes _ (A_eq2 _ c) h2).trans <|
    (keep_step (dat1 (V3 m ρ) c) launch1.win.arr_inj hostOps1_writes _ (A_eq1 _ c) h1).trans <|
    (keep_step (dat0 (V1 m ρ) c) launch0.win.arr_inj hostOps0_writes _ (A_eq0 _ c) h0)

abbrev adm : (p : Fin 7) → (pcfgs (F := F) p).Adm := fun p => (cfgs p).toPCfg_adm
def pdats : (p : Fin 7) → (c : Dev nD) → Dat τ (Elt F) Unit ℕ (UR sig nD τ) ℕ (Pipeline.pin (pcfgs (F := F)) adm p) c
  | ⟨0, _⟩ => dat0 (V1 m ρ)
  | ⟨1, _⟩ => dat1 (V3 m ρ)
  | ⟨2, _⟩ => dat2 (V5 m ρ)
  | ⟨3, _⟩ => dat3 (V7 m ρ)
  | ⟨4, _⟩ => dat4 (V9 m ρ)
  | ⟨5, _⟩ => dat5 (V11 m ρ)
  | ⟨6, _⟩ => dat6 (V13 m ρ)
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev Tat (W : Dev nD → Valuation τ sig (Elt F)) (c : Dev nD) : sProp 𝕄 :=
  iprop(StableHlo.held (c : Thread nD τ) (Pipeline.ucRefs τ sig) (W c) ∗ R c)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (List.forall_iff_forall_mem.mp hfresh) W R

abbrev exitW (p : Fin 7) (Wi : Dev nD → Valuation τ sig (Elt F)) (c : Dev nD) : Valuation τ sig (Elt F) :=
  Pipeline.withArrays (Pipeline.pin (pcfgs (F := F)) adm p).spec c (Wi c) fun w => (pdats m ρ p c).arrAt w (Pipeline.pin (pcfgs (F := F)) adm p).N

set_option backward.isDefEq.respectTransparency.types false in
-- The seven regions differ only in the index, the entry contents and the body's data: one construction serves all.
def regOf (p : Fin 7) (lf : Pipeline.LaunchFacts (nD := nD) (τ := τ) cfgs p) (Wi : Dev nD → Valuation τ sig (Elt F))
    (hb : ∀ c, BodyObligation (pdats m ρ p c) (defs₀ (F := F)) 𝒱₀ () Set.univ)
    (hΦi : ∀ c, Pipeline.ΦA (Pipeline.pin (pcfgs (F := F)) adm p).spec c ⊢ (pdats m ρ p c).Φ 0)
    (hΦo : ∀ c, (pdats m ρ p c).Φ (Fin.last _) ⊢ Pipeline.ΦA (Pipeline.pin (pcfgs (F := F)) adm p).spec c)
    (hA : ∀ c w, (pdats m ρ p c).A w = Wi c (Proc.devRef .tc (Pipeline.arrRef (Pipeline.pin (pcfgs (F := F)) adm p).spec w)) := by exact fun _ _ => rfl)
    (hq : ∀ c w, (pdats m ρ p c).q w = fullShare := by exact fun _ _ => rfl)
    (hz : ∀ c t, (pdats m ρ p c).owed t = 0 := by exact fun _ _ => rfl)
    (hrec : ∀ c x, x ∈ (pdats m ρ p c).recorded 0 := by exact fun _ _ => trivial) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p hz
  pre := Tat Wi
  post := Tat (exitW m ρ p Wi)
  X c := iprop(∃ r, prngReg c r)
  Y c := iprop(∃ r, prngReg c r)
  Z c := Pipeline.unscopedRest (Pipeline.pin (pcfgs (F := F)) adm p).spec c fun b => Wi c b
  hentry c := by
    have hsplit := Pipeline.arrays_of_unscopedBufs (p := p) (pcfgs (F := F)) adm (pdats m ρ) lf.win lf.arr_whole c
      ((pdats m ρ p c).share_full (hq c)) (fun b => Wi c b) (hA c)
    rw [Pipeline.unscopedBufs_held] at hsplit
    rw [Pipeline.ownSems0_none]
    unfold Pipeline.Dat.owesAt Pipeline.owesWithin Pipeline.prefHeld
    rw [hz c 0, show (Finset.univ : Finset (Fin 0)) = ∅ from rfl, BI.bigSep_empty]
    iintro ⟨⟨Hub, Hp, %W, HO⟩, -, -⟩
    ihave H := hsplit $$ Hub
    icases H with ⟨Ha, Hrest⟩
    imodintro
    isplitl [Ha]; · iexact Ha
    isplitr; · iempintro
    isplitl [HO]
    · iexists W; isplitr; · ipureintro; exact fun x _ => Or.inl (hrec c x)
      iexact HO
    isplitl [Hp]; · iexact Hp
    iexact Hrest
  hin c := by
    refine BIBase.Entails.trans ?_ (hΦi c)
    unfold Pipeline.ΦA
    iintro ⟨Hp, -, Hr⟩
    isplitl [Hr]; · iexact Hr
    iexact Hp
  hout c := by
    rw [Pipeline.ownSems0_none]
    refine BIBase.Entails.trans (hΦo c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm
      lf.win lf.arr_whole c (pdats m ρ) ((pdats m ρ p c).share_full (hq c)) (fun b => Wi c b) (fun b => exitW m ρ p Wi c b)
      ((pdats m ρ p c).arrAt · (Pipeline.pin (pcfgs (F := F)) adm p).N) (fun w => Eq.symm (Pipeline.withArrays_arr _ lf.win.arr_inj c _ _ w))
      fun b hb => Pipeline.withArrays_of_ne _ c _ _ b fun w e => hb (Finset.mem_image.mpr ⟨w, Finset.mem_univ _, e⟩)
    rw [Pipeline.unscopedBufs_held] at hjoin
    unfold Pipeline.Dat.owesAt Pipeline.owesWithin
    rw [hz c (Fin.last _)]
    iintro ⟨Ha, ⟨%W, -, HO⟩, HY, Hrest⟩
    imodintro
    isplitl [Ha Hrest]
    · iapply hjoin; isplitl [Ha] <;> iassumption
    isplitl [HY]; · iexact HY
    iexists W; iexact HO

def reg0 := regOf m ρ 0 launch0 (W1 m ρ) (body_obligation0 (V1 m ρ)) (hin0 (V1 m ρ)) (hout0 (V1 m ρ))
def reg1 := regOf m ρ 1 launch1 (W3 m ρ) (body_obligation1 (V3 m ρ)) (fun _ => .rfl) fun _ => .rfl
def reg2 := regOf m ρ 2 launch2 (W5 m ρ) (body_obligation2 (V5 m ρ)) (hin2 (V5 m ρ)) (hout2 (V5 m ρ))
def reg3 := regOf m ρ 3 launch3 (W7 m ρ) (body_obligation3 (V7 m ρ)) (fun _ => .rfl) fun _ => .rfl
def reg4 := regOf m ρ 4 launch4 (W9 m ρ) (body_obligation4 (V9 m ρ)) (hin4 (V9 m ρ)) (hout4 (V9 m ρ))
def reg5 := regOf m ρ 5 launch5 (W11 m ρ) (body_obligation5 (V11 m ρ)) (fun _ => .rfl) fun _ => .rfl
def reg6 := regOf m ρ 6 launch6 (W13 m ρ) (body_obligation6 (V13 m ρ)) (fun _ => .rfl) fun _ => .rfl

abbrev segs : List (Pipeline.Seg (pcfgs (F := F)) adm (pdats m ρ) () defs₀ 𝒱₀ L lv) :=
  [ .host (hseg hostOps0 hostOps0_sub hostOps0_fresh (W0 m ρ)), .region (reg0 m ρ),
    .host (hseg hostOps1 hostOps1_sub hostOps1_fresh (W2 m ρ)), .region (reg1 m ρ),
    .host (hseg hostOps2 hostOps2_sub hostOps2_fresh (W4 m ρ)), .region (reg2 m ρ),
    .host (hseg hostOps3 hostOps3_sub hostOps3_fresh (W6 m ρ)), .region (reg3 m ρ),
    .host (hseg hostOps4 hostOps4_sub hostOps4_fresh (W8 m ρ)), .region (reg4 m ρ),
    .host (hseg hostOps5 hostOps5_sub hostOps5_fresh (W10 m ρ)), .region (reg5 m ρ),
    .host (hseg hostOps6 hostOps6_sub hostOps6_fresh (W12 m ρ)), .region (reg6 m ρ) ]

set_option backward.isDefEq.respectTransparency.types false in
theorem run_val : θ_run defs (onTc (τ := τ) (main (F := F))) ⟨m, fun _ => 0, ρ⟩ (fun r => ∀ c : Dev nD,
      r.2.mem ((c.tc : Thread nD τ).loc main_v78) = (dat6 (V13 m ρ) c).arrAt 5 cfg6.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  Pipeline.θ_run_regions_kit (pcfgs (F := F)) adm (pdats m ρ) () cellOf_inj emb₁ defs₀ 𝒱₀ L lv m ρ main (segs m ρ)
    (fun c Q => by rw [main_chain c, Pipeline.Seg.run_eq_chain]; exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := Tat (W0 m ρ))
    (Tₙ := fun c => iprop(StableHlo.held (c : Thread nD τ) (Pipeline.ucRefs τ sig) (W14 m ρ c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨(h c _ (Finset.mem_filter.mpr ⟨StableHlo.devRef_mem_tcRefs main_v78, by decide⟩)).trans (W14_arr m ρ c 5), by
        repeat' apply And.intro
        all_goals exact kept_end m ρ c (h c) (by decide +kernel)⟩)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c => (h c).2) (run_val m ρ)

end Cert.KernelIdeal.Hand

end
-- ==== Proof.Ideal.Pay0.lean ====
import proofs.«176666_j61426622267897_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StackMember

set_option maxRecDepth 16384

noncomputable section

namespace Cert.KernelIdeal.Hand

open Cert.KernelIdeal Cert.KernelIdeal.Gen
open Idealize.ShloMosaic Idealize.SL.Sem
open Idealize.ShloMosaic.ValueIdx

-- The dimension numbers are the plain product's, so at an index the product is the sum over the contracted coordinate.
theorem mm0_apply (a : FVec Ideal S5000x64 .f32) (w : FVec Ideal S64x128 .f32) (r : Fin 5000) (q : Fin 128) :
    matmul dot_S5000x64_S64x128_S5000x128_1_0_0_1_n_n none a w (constant (F := Ideal) S5000x128 .f32 0x00000000#32) (ix2 r q)
      = ∑ k : Fin 64, a (ix2 r k) * w (ix2 k q) := by
  simp only [matmul]
  rw [Ideal.matmul_constant_zero_apply]
  exact (Ideal.dotGeneral_apply (DotDims.plain 5000 64 128) none _ a w (ix2 r q)).symm.trans
    (StackMember.dotGeneral_plain_apply none a w r q)

theorem bcastCol0_apply (v : FVec Ideal S5000x1 .f32) (r : Fin 5000) (k : Fin 64) :
    broadcastTo S5000x64 v broadcasts_S5000x1_S5000x64 (ix2 r k) = v (ix2 r (0 : Fin 1)) := by
  refine broadcastTo_apply v broadcasts_S5000x1_S5000x64 (ix2 r k) (ix2 r (0 : Fin 1)) fun ax => ?_
  match ax with
  | ⟨0, _⟩ => rfl
  | ⟨1, _⟩ => rfl

theorem colsum0_apply (src : FVec Ideal S5000x128 .f32) (hacc : (0x00000000#32 : BitVec 32) = 0x00000000#32) (q : Fin 128) :
    multiReduction (F := Ideal) .add [0] S128 src 0x00000000#32 reduces_S5000x128_S128 (.inl rfl) hacc (ix1 q)
      = ∑ r : Fin 5000, src (ix2 r q) := by
  refine (Ideal.multiReduction_add_single src 0x00000000#32 reduces_S5000x128_S128 (.inl rfl) hacc (ix1 q)).trans ?_
  refine Finset.sum_congr rfl fun r _ => congrArg src ?_
  funext a
  match a with
  | ⟨0, _⟩ => rfl
  | ⟨1, _⟩ => rfl

variable (a : Vec Ideal S5000x64 .f32) (dv : Vec Ideal S5000x1 .f32) (wl : Vec Ideal S64x128 .f32)
  (x : Vec Ideal S5000x64 .f32) (wr : Vec Ideal S64x128 .f32) (b : Vec Ideal S1x128 .f32)

theorem pay0_4_apply (r : Fin 5000) (q : Fin 128) :
    k0_pay4 (F := Ideal) a dv wl x wr b (ix2 r q)
      = ((∑ k : Fin 64, (a (ix2 r k) * dv (ix2 r (0 : Fin 1))) * wl (ix2 k q)) + ∑ k : Fin 64, x (ix2 r k) * wr (ix2 k q))
          + b (ix2 (0 : Fin 1) q) := by
  unfold k0_pay4
  simp only [shapeCast_self]
  refine (addf_apply _ _ _).trans ?_
  refine congrArg₂ (· + ·) ?_ (broadcastTo_1b_ab_apply b broadcasts_S1x128_S5000x128 r q)
  refine (addf_apply _ _ _).trans ?_
  refine congrArg₂ (· + ·) ((mm0_apply _ _ r q).trans ?_) (mm0_apply _ _ r q)
  refine Finset.sum_congr rfl fun k _ => ?_
  refine congrArg (· * wl (ix2 k q)) ?_
  refine (mulf_apply _ _ _).trans ?_
  exact congrArg (a (ix2 r k) * ·) (bcastCol0_apply dv r k)

theorem pay0_5_apply (s : Vec Ideal S1x128 .f32) (q : Fin 128) :
    k0_pay5 (F := Ideal) a dv wl x wr b s (ix2 (0 : Fin 1) q)
      = s (ix2 (0 : Fin 1) q) + ∑ r : Fin 5000, k0_pay4 (F := Ideal) a dv wl x wr b (ix2 r q) := by
  unfold k0_pay5
  simp only [shapeCast_self]
  refine (addf_apply _ _ _).trans ?_
  refine congrArg (s (ix2 (0 : Fin 1) q) + ·) ?_
  refine (shapeCast_a_1a_apply _ shapeCasts_S128_S1x128 (0 : Fin 1) q).trans ?_
  exact colsum0_apply _ rfl q

theorem pay0_6_apply (q : Fin 128) :
    k0_pay6 (F := Ideal) a dv wl x wr b (ix1 q)
      = ∑ r : Fin 5000, k0_pay4 (F := Ideal) a dv wl x wr b (ix2 r q) * k0_pay4 (F := Ideal) a dv wl x wr b (ix2 r q) := by
  unfold k0_pay6
  refine (colsum0_apply _ rfl q).trans ?_
  rfl

theorem pay0_1_apply (s : Vec Ideal S1x128 .f32) (v : FVec Ideal S128 .f32) (q : Fin 128) :
    k0_pay1 (F := Ideal) s v (ix2 (0 : Fin 1) q) = s (ix2 (0 : Fin 1) q) + v (ix1 q) := by
  unfold k0_pay1
  simp only [shapeCast_self]
  refine (addf_apply _ _ _).trans ?_
  exact congrArg (s (ix2 (0 : Fin 1) q) + ·) (shapeCast_a_1a_apply _ shapeCasts_S128_S1x128 (0 : Fin 1) q)

theorem pay0_2_apply (q : Fin 128) : k0_pay2 (F := Ideal) (ix2 (0 : Fin 1) q) = 0 := by
  unfold k0_pay2
  simp only [shapeCast_self]
  exact Ideal.ofBits_zero_f32
theorem pay0_3_apply (q : Fin 128) : k0_pay3 (F := Ideal) (ix2 (0 : Fin 1) q) = 0 := by
  unfold k0_pay3
  simp only [shapeCast_self]
  exact Ideal.ofBits_zero_f32

end Cert.KernelIdeal.Hand
-- ==== Proof.Spec.Layers.lean ====
import Idealize.ShloMosaic.PureOps.Ideal

noncomputable section

namespace Cert.Spec

open Idealize.ShloMosaic

variable {n f g : ℕ}

def pre (agg x : Fin n → Fin f → EReal) (d : Fin n → EReal) (Wl Wr : Fin f → Fin g → EReal) (b : Fin g → EReal) :
    Fin n → Fin g → EReal :=
  fun i j => ((∑ k, Ideal.div (agg i k) (d i) * Wl k j) + ∑ k, x i k * Wr k j) + b j

def colMean (N : EReal) (h : Fin n → Fin g → EReal) : Fin g → EReal :=
  fun j => Ideal.div (∑ i, h i j) N

def colVar (N : EReal) (h : Fin n → Fin g → EReal) : Fin g → EReal :=
  fun j => Ideal.div (∑ i, (h i j - colMean N h j) * (h i j - colMean N h j)) N

def bnRelu (N eps : EReal) (h : Fin n → Fin g → EReal) (gm be : Fin g → EReal) : Fin n → Fin g → EReal :=
  fun i j => max ((((h i j - colMean N h j) * Ideal.rsqrt (colVar N h j + eps)) * gm j) + be j) 0

def lin (h : Fin n → Fin f → EReal) (W : Fin f → Fin g → EReal) (b : Fin g → EReal) : Fin n → Fin g → EReal :=
  fun i j => (∑ k, h i k * W k j) + b j

def rowMax (z : Fin n → Fin g → EReal) : Fin n → EReal :=
  fun i => max ⊥ ((Finset.univ : Finset (Fin g)).fold max ⊥ fun j => z i j)

def logSoftmax (z : Fin n → Fin g → EReal) : Fin n → Fin g → EReal :=
  fun i j => (z i j - rowMax z i) - Ideal.log (∑ j', Ideal.exp (z i j' - rowMax z i))

end Cert.Spec

end
-- ==== Proof.Spec.KernelForm.lean ====
import proofs.«176666_j61426622267897_1_alg».proof.Proof.Spec.Layers

noncomputable section

namespace Cert.Spec

open Idealize.ShloMosaic

variable {n f g : ℕ}

def preK (agg x : Fin n → Fin f → EReal) (dinv : Fin n → EReal) (Wl Wr : Fin f → Fin g → EReal) (b : Fin g → EReal) :
    Fin n → Fin g → EReal :=
  fun i j => ((∑ k, (agg i k * dinv i) * Wl k j) + ∑ k, x i k * Wr k j) + b j

def bnK (eps : EReal) (h : Fin n → Fin g → EReal) (mean var gm be : Fin g → EReal) : Fin n → Fin g → EReal :=
  fun i j => max ((((h i j - mean j) * Ideal.rsqrt (var j + eps)) * gm j) + be j) 0

theorem bnRelu_eq_bnK (N eps : EReal) (h : Fin n → Fin g → EReal) (gm be : Fin g → EReal) :
    bnRelu N eps h gm be = bnK eps h (colMean N h) (colVar N h) gm be := rfl

end Cert.Spec

end
-- ==== Proof.Spec.Algebra.lean ====
import Idealize.ShloMosaic.PureOps.Ideal
import Idealize.ShloMosaic.PureOps.Ideal.Laws
import Mathlib.Data.EReal.Basic
import Mathlib.Data.EReal.Operations
import Mathlib.Data.EReal.Inv
import Mathlib.Algebra.BigOperators.Fin
import Mathlib.Algebra.BigOperators.Ring.Finset
import Mathlib.Algebra.Order.BigOperators.Ring.Finset
import Mathlib.Logic.Equiv.Fin.Basic
import Mathlib.Analysis.SpecialFunctions.Sqrt
import Mathlib.Tactic.Ring
import Mathlib.Tactic.FieldSimp
import Mathlib.Tactic.Linarith
import Mathlib.Tactic.Positivity

noncomputable section

namespace Cert.Spec

open Idealize.ShloMosaic

def IsReal {ι : Type*} (v : ι → EReal) : Prop := ∀ i, ∃ r : ℝ, v i = (r : EReal)

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem real_zero : ∃ s : ℝ, (0 : EReal) = (s : EReal) := ⟨0, rfl⟩

theorem real_one : ∃ s : ℝ, (1 : EReal) = (s : EReal) := ⟨1, rfl⟩

theorem real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy; exact ⟨a + b, (EReal.coe_add a b).symm⟩

theorem real_sub {x y : EReal} (hx : ∃ r : ℝ, x = (r : EReal)) (hy : ∃ r : ℝ, y = (r : EReal)) :
    ∃ r : ℝ, x - y = (r : EReal) := by
  obtain ⟨a, rfl⟩ := hx; obtain ⟨b, rfl⟩ := hy; exact ⟨a - b, (EReal.coe_sub a b).symm⟩

theorem real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy; exact ⟨a * b, (EReal.coe_mul a b).symm⟩

theorem coe_max (a b : ℝ) : ((max a b : ℝ) : EReal) = max (a : EReal) (b : EReal) :=
  EReal.coe_strictMono.monotone.map_max

theorem real_max {x y : EReal} (hx : ∃ r : ℝ, x = (r : EReal)) (hy : ∃ r : ℝ, y = (r : EReal)) :
    ∃ r : ℝ, max x y = (r : EReal) := by
  obtain ⟨a, rfl⟩ := hx; obtain ⟨b, rfl⟩ := hy; exact ⟨max a b, (coe_max a b).symm⟩

theorem real_sum {κ : Type*} (s : Finset κ) {f : κ → EReal} (hf : ∀ k ∈ s, ∃ r : ℝ, f k = (r : EReal)) :
    ∃ r : ℝ, ∑ k ∈ s, f k = (r : EReal) := by
  classical
  induction s using Finset.induction_on with
  | empty => exact ⟨0, by simp⟩
  | insert a s ha ih =>
    rw [Finset.sum_insert ha]
    exact real_add (hf a (Finset.mem_insert_self a s)) (ih fun k hk => hf k (Finset.mem_insert_of_mem hk))

theorem real_div {x : EReal} (hx : ∃ r : ℝ, x = (r : EReal)) {d : ℝ} (hd : d ≠ 0) :
    ∃ r : ℝ, Ideal.div x (d : EReal) = (r : EReal) := by
  obtain ⟨a, rfl⟩ := hx
  exact ⟨a * (1 / d), by rw [Ideal.div_coe hd, EReal.coe_mul]⟩

theorem div_coe_coe (a : ℝ) {d : ℝ} (hd : d ≠ 0) :
    Ideal.div (a : EReal) (d : EReal) = ((a / d : ℝ) : EReal) := by
  rw [Ideal.div_coe hd, ← EReal.coe_mul, mul_one_div]

theorem real_div' {x y : EReal} (hx : ∃ r : ℝ, x = (r : EReal)) (hy : ∃ d : ℝ, d ≠ 0 ∧ y = (d : EReal)) :
    ∃ r : ℝ, Ideal.div x y = (r : EReal) := by
  obtain ⟨d, hd, rfl⟩ := hy; exact real_div hx hd

theorem real_rsqrt {x : EReal} (hx : ∃ r : ℝ, 0 < r ∧ x = (r : EReal)) :
    ∃ s : ℝ, 0 < s ∧ Ideal.rsqrt x = (s : EReal) := by
  obtain ⟨r, hr, rfl⟩ := hx
  exact ⟨(Real.sqrt r)⁻¹, inv_pos.mpr (Real.sqrt_pos.mpr hr),
    by rw [Ideal.rsqrt_coe, if_neg (not_lt.mpr hr.le), if_neg hr.ne']⟩

namespace IsReal

variable {ι κ : Type*}

theorem zero : IsReal (fun _ : ι => (0 : EReal)) := fun _ => ⟨0, rfl⟩

theorem add {f g : ι → EReal} (hf : IsReal f) (hg : IsReal g) : IsReal (fun i => f i + g i) :=
  fun i => real_add (hf i) (hg i)

theorem zero_add {f : ι → EReal} (hf : IsReal f) : IsReal (fun i => 0 + f i) :=
  fun i => by simpa using hf i

theorem max {f g : ι → EReal} (hf : IsReal f) (hg : IsReal g) : IsReal (fun i => Max.max (f i) (g i)) :=
  fun i => real_max (hf i) (hg i)

theorem sum [Fintype κ] {f : ι → κ → EReal} (hf : ∀ i, IsReal (f i)) : IsReal (fun i => ∑ k, f i k) :=
  fun i => real_sum Finset.univ fun k _ => hf i k

theorem div {f : ι → EReal} (hf : IsReal f) {d : ι → ℝ} (hd : ∀ i, d i ≠ 0) :
    IsReal (fun i => Ideal.div (f i) (d i : EReal)) :=
  fun i => real_div (hf i) (hd i)

theorem rsqrt {f : ι → EReal} (hf : ∀ i, ∃ r : ℝ, 0 < r ∧ f i = (r : EReal)) :
    IsReal (fun i => Ideal.rsqrt (f i)) :=
  fun i => let ⟨s, _, h⟩ := real_rsqrt (hf i); ⟨s, h⟩

theorem exists_eq {v : ι → EReal} (hv : IsReal v) : ∃ a : ι → ℝ, ∀ i, v i = (a i : EReal) :=
  ⟨fun i => (hv i).choose, fun i => (hv i).choose_spec⟩

end IsReal

theorem mul_inv_eq_div (a : EReal) {d : ℝ} (hd : d ≠ 0) :
    a * Ideal.div 1 (d : EReal) = Ideal.div a (d : EReal) := by
  rw [Ideal.div_coe hd, Ideal.div_coe hd, one_mul]

end Cert.Spec

end
-- ==== Proof.Spec.Stats.lean ====
import proofs.«176666_j61426622267897_1_alg».proof.Proof.Spec.Algebra

noncomputable section

namespace Cert.Spec

open Idealize.ShloMosaic

section Variance

variable {ι : Type*} [Fintype ι]

theorem variance_real_identity (a : ι → ℝ) {N : ℝ} (hN : N = Fintype.card ι) (hN0 : N ≠ 0) :
    (∑ i, (a i - (∑ i, a i) / N) * (a i - (∑ i, a i) / N)) / N
      = (∑ i, a i * a i) / N - (∑ i, a i) / N * ((∑ i, a i) / N) := by
  have hS : ∑ i, a i = N * ((∑ i, a i) / N) := by field_simp
  generalize (∑ i, a i) / N = m at hS ⊢
  have key : ∑ i, (a i - m) * (a i - m) = ∑ i, a i * a i - 2 * m * ∑ i, a i + N * (m * m) := by
    have e : ∀ i, (a i - m) * (a i - m) = a i * a i - 2 * m * a i + m * m := fun i => by ring
    simp_rw [e]
    rw [Finset.sum_add_distrib, Finset.sum_sub_distrib, ← Finset.mul_sum, Finset.sum_const,
      Finset.card_univ, nsmul_eq_mul, ← hN]
  rw [key, hS]
  field_simp
  ring

theorem mean_eq {h : ι → EReal} (a : ι → ℝ) (ha : ∀ i, h i = (a i : EReal)) {N : ℝ} (hN0 : N ≠ 0) :
    Ideal.div (∑ i, h i) (N : EReal) = (((∑ i, a i) / N : ℝ) : EReal) := by
  rw [show h = fun i => (a i : EReal) from funext ha, ← coe_sum, div_coe_coe _ hN0]

theorem mean_real {h : ι → EReal} (hh : IsReal h) {N : ℝ} (hN0 : N ≠ 0) :
    ∃ m : ℝ, Ideal.div (∑ i, h i) (N : EReal) = (m : EReal) := by
  obtain ⟨a, ha⟩ := hh.exists_eq
  exact ⟨_, mean_eq a ha hN0⟩

theorem msd_eq {h : ι → EReal} (a : ι → ℝ) (ha : ∀ i, h i = (a i : EReal)) {N : ℝ} (hN0 : N ≠ 0) :
    Ideal.div (∑ i, (h i - Ideal.div (∑ i, h i) (N : EReal)) * (h i - Ideal.div (∑ i, h i) (N : EReal)))
        (N : EReal)
      = (((∑ i, (a i - (∑ i, a i) / N) * (a i - (∑ i, a i) / N)) / N : ℝ) : EReal) := by
  rw [mean_eq a ha hN0]
  rw [show h = fun i => (a i : EReal) from funext ha]
  simp only [← EReal.coe_sub, ← EReal.coe_mul]
  rw [← coe_sum, div_coe_coe _ hN0]

theorem msq_sub_eq {h : ι → EReal} (a : ι → ℝ) (ha : ∀ i, h i = (a i : EReal)) {N : ℝ} (hN0 : N ≠ 0) :
    Ideal.div (∑ i, h i * h i) (N : EReal)
        - Ideal.div (∑ i, h i) (N : EReal) * Ideal.div (∑ i, h i) (N : EReal)
      = (((∑ i, a i * a i) / N - (∑ i, a i) / N * ((∑ i, a i) / N) : ℝ) : EReal) := by
  rw [mean_eq a ha hN0]
  rw [show h = fun i => (a i : EReal) from funext ha]
  simp only [← EReal.coe_mul]
  rw [← coe_sum, div_coe_coe _ hN0, ← EReal.coe_sub]

theorem variance_eq {h : ι → EReal} (hh : IsReal h) {N : ℝ} (hN : N = Fintype.card ι) (hN0 : N ≠ 0) :
    Ideal.div (∑ i, (h i - Ideal.div (∑ i, h i) (N : EReal)) * (h i - Ideal.div (∑ i, h i) (N : EReal)))
        (N : EReal)
      = Ideal.div (∑ i, h i * h i) (N : EReal)
        - Ideal.div (∑ i, h i) (N : EReal) * Ideal.div (∑ i, h i) (N : EReal) := by
  obtain ⟨a, ha⟩ := hh.exists_eq
  rw [msd_eq a ha hN0, msq_sub_eq a ha hN0, variance_real_identity a hN hN0]

theorem msd_real {h : ι → EReal} (hh : IsReal h) {N : ℝ} (hN : N = Fintype.card ι) (hN0 : N ≠ 0) :
    ∃ v : ℝ, 0 ≤ v ∧
      Ideal.div (∑ i, (h i - Ideal.div (∑ i, h i) (N : EReal)) * (h i - Ideal.div (∑ i, h i) (N : EReal)))
        (N : EReal) = (v : EReal) := by
  obtain ⟨a, ha⟩ := hh.exists_eq
  exact ⟨_, div_nonneg (Finset.sum_nonneg fun i _ => mul_self_nonneg _) (hN ▸ Nat.cast_nonneg _),
    msd_eq a ha hN0⟩

end Variance

theorem sum_tiles_mk' {M : Type*} [AddCommMonoid M] {n : ℕ} (T R : ℕ) (hn : n = T * R) (f : Fin n → M)
    (hb : ∀ (t : Fin T) (r : Fin R), R * t.val + r.val < n) :
    ∑ t : Fin T, ∑ r : Fin R, f ⟨R * t.val + r.val, hb t r⟩ = ∑ i : Fin n, f i := by
  subst hn
  have e' : ∀ t r, (⟨R * t.val + r.val, hb t r⟩ : Fin (T * R)) = finProdFinEquiv (t, r) := fun t r =>
    Fin.ext (by simp [finProdFinEquiv, Nat.add_comm])
  simp only [e']
  exact (Fintype.sum_prod_type' (fun t r => f (finProdFinEquiv (t, r)))).symm.trans
    (Equiv.sum_comp finProdFinEquiv f)

theorem bn_real {hpre mean v e g be : EReal} (hh : ∃ r : ℝ, hpre = (r : EReal))
    (hm : ∃ r : ℝ, mean = (r : EReal)) (hv : ∃ r : ℝ, 0 ≤ r ∧ v = (r : EReal))
    (he : ∃ r : ℝ, 0 < r ∧ e = (r : EReal)) (hg : ∃ r : ℝ, g = (r : EReal)) (hb : ∃ r : ℝ, be = (r : EReal)) :
    ∃ r : ℝ, max ((hpre - mean) * Ideal.rsqrt (v + e) * g + be) 0 = (r : EReal) := by
  obtain ⟨a, ha, rfl⟩ := hv; obtain ⟨c, hc, rfl⟩ := he
  obtain ⟨s, _, hs⟩ := real_rsqrt ⟨a + c, add_pos_of_nonneg_of_pos ha hc, (EReal.coe_add a c).symm⟩
  exact real_max (real_add (real_mul (real_mul (real_sub hh hm) ⟨s, hs⟩) hg) hb) real_zero

end Cert.Spec

end
-- ==== Proof.Ideal.Val0.lean ====
import proofs.«176666_j61426622267897_1_alg».proof.Proof.Ideal.Stats0
import proofs.«176666_j61426622267897_1_alg».proof.Proof.Ideal.Pay0
import proofs.«176666_j61426622267897_1_alg».proof.Proof.Spec.KernelForm
import proofs.«176666_j61426622267897_1_alg».proof.Proof.Spec.Stats
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (arrRef)
open Idealize.ShloMosaic.ValueIdx

section Value0
variable (V : (c : Dev nD) → (b : Ref sig .tc) → Buf (Elt Ideal) ((c : Thread nD τ).loc b)) (c : Dev nD) (t : Fin cfg0.N) (q : Fin 128)

def preArr0 : Fin 100000 → Fin 128 → EReal :=
  Cert.Spec.preK (fun i k => V c (arrRef spec0 0) (ix2 i k)) (fun i k => V c (arrRef spec0 1) (ix2 i k))
    (fun i => V c (arrRef spec0 2) (ix2 i (0 : Fin 1))) (fun k j => V c (arrRef spec0 3) (ix2 k j))
    (fun k j => V c (arrRef spec0 4) (ix2 k j)) (fun j => V c (arrRef spec0 5) (ix2 (0 : Fin 1) j))

theorem preArr0_eq :
    preArr0 V c = Cert.Spec.preK (fun i k => V c (arrRef spec0 0) (ix2 i k)) (fun i k => V c (arrRef spec0 1) (ix2 i k))
      (fun i => V c (arrRef spec0 2) (ix2 i (0 : Fin 1))) (fun k j => V c (arrRef spec0 3) (ix2 k j))
      (fun k j => V c (arrRef spec0 4) (ix2 k j)) (fun j => V c (arrRef spec0 5) (ix2 (0 : Fin 1) j)) := rfl

def hpreArr0 : Vec Ideal S100000x128 .f32 := fun i => preArr0 V c (i 0) (i 1)

theorem hz0 : (![0, 0] : Fin 2 → Nat) = fun _ => 0 := funext fun a => by fin_cases a <;> rfl

theorem zoff0 {ix : Fin 2 → Nat} (h : ix = ![0, 0]) (sz : Fin 2 → Nat) : (fun a => ix a * sz a) = fun _ => 0 := by
  subst h; funext a; fin_cases a <;> exact Nat.zero_mul _

theorem lt0 : t.val < 20 := lt_of_lt_of_eq (b := grid0.N) t.isLt N_0

def row0 (r : Fin 5000) : Fin 100000 := ⟨5000 * t.val + r.val, by have := lt0 t; have := r.isLt; omega⟩

theorem idx0 : ∀ t : Fin cfg0.N, win0_0.index t 0 = t.val ∧ win0_1.index t 0 = t.val ∧ win0_2.index t 0 = t.val ∧ win0_6.index t 0 = t.val :=
  (by decide +kernel : ∀ t : Fin grid0.N, _)

theorem emb_row0 {m : Nat} {off : Fin 2 → Nat} {inb}
    (h0 : off 0 = t.val * 5000) (h1 : off 1 = 0) (r : Fin 5000) (k : Fin m) :
    (Rect.unit (s := ⟨2, ![100000, m]⟩) off ![5000, m] inb).emb (ix2 r k) = ix2 (row0 t r) k :=
  Shape.idx_ext₂ (by show off 0 + 1 * r.val = 5000 * t.val + r.val; omega) (by show off 1 + 1 * k.val = k.val; omega)

theorem whole0 : iblk0 V c 3 t = V c (arrRef spec0 3) ∧ iblk0 V c 4 t = V c (arrRef spec0 4) ∧ iblk0 V c 5 t = V c (arrRef spec0 5) :=
  ⟨Memref.read_access_unit_zero _ _ (zoff0 rfl _) _ _, Memref.read_access_unit_zero _ _ (zoff0 rfl _) _ _,
    Memref.read_access_unit_zero _ _ (zoff0 rfl _) _ _⟩

theorem body0_eq (x0 x1 : Vec Ideal S5000x64 .f32) (x2 : Vec Ideal S5000x1 .f32) (x3 x4 : Vec Ideal S64x128 .f32) (x5 : Vec Ideal S1x128 .f32) :
    out0_6 x0 x1 x2 x3 x4 x5 = k0_pay4 x0 x2 x3 x1 x4 x5 ∧ ∀ s, accS0 x0 x1 x2 x3 x4 x5 s = k0_pay5 x0 x2 x3 x1 x4 x5 s
      ∧ accQ0 x0 x1 x2 x3 x4 x5 s = k0_pay1 s (k0_pay6 x0 x2 x3 x1 x4 x5) := by
  unfold out0_6 hval0 accS0 accQ0
  simp only [View.canon_unit_zero (S := S5000x128) hz0, View.canon_unit_zero (S := S1x128) hz0, View.ld_unit_zero (S := S5000x64) hz0, View.ld_unit_zero (S := S5000x1) hz0, View.ld_unit_zero (S := S64x128) hz0,
    View.ld_unit_zero (S := S1x128) hz0]
  exact ⟨trivial, fun _ => ⟨trivial, trivial⟩⟩

theorem hpreBlk0_apply (r : Fin 5000) :
    k0_pay4 (F := Ideal) (iblk0 V c 0 t) (iblk0 V c 2 t) (iblk0 V c 3 t) (iblk0 V c 1 t) (iblk0 V c 4 t) (iblk0 V c 5 t) (ix2 r q)
      = preArr0 V c (row0 t r) q := by
  obtain ⟨e0, e1, e2, -⟩ := idx0 t
  obtain ⟨w3, w4, w5⟩ := whole0 V c t
  rw [pay0_4_apply, w3, w4, w5]
  refine congrArg₂ (· + ·) (congrArg₂ (· + ·) (Finset.sum_congr rfl fun k _ => ?_) (Finset.sum_congr rfl fun k _ => ?_)) rfl
  · exact congrArg₂ (· * ·) (congrArg₂ (· * ·) (congrArg (V c (arrRef spec0 0)) (emb_row0 t (congrArg (· * 5000) e0) rfl r k))
      (congrArg (V c (arrRef spec0 2)) (emb_row0 t (congrArg (· * 5000) e2) rfl r 0))) rfl
  · exact congrArg₂ (· * ·) (congrArg (V c (arrRef spec0 1)) (emb_row0 t (congrArg (· * 5000) e1) rfl r k)) rfl

theorem copy0_eq (s : Vec Ideal S1x128 .f32) : copy0 (F := Ideal) s = s := by
  unfold copy0
  rw [View.canon_unit_zero hz0, View.ld_unit_zero (S := S1x128) hz0]

theorem zero0_apply : zeroS0 (F := Ideal) (ix2 (0 : Fin 1) q) = 0 ∧ zeroQ0 (F := Ideal) (ix2 (0 : Fin 1) q) = 0 := by
  unfold zeroS0 zeroQ0
  rw [View.canon_unit_zero hz0, View.canon_unit_zero hz0]
  exact ⟨pay0_2_apply q, pay0_3_apply q⟩

theorem last0 : 19 < cfg0.N := by rw [show cfg0.N = 20 from N_0]; decide

def tLast0 : Fin cfg0.N := ⟨19, last0⟩

theorem acc0_sum (g : EReal → EReal) (acc : (n : ℕ) → n < cfg0.N → Vec Ideal S1x128 .f32) (z : Vec Ideal S1x128 .f32)
    (step : Fin cfg0.N → Vec Ideal S1x128 .f32 → Vec Ideal S1x128 .f32) (hz : z (ix2 (0 : Fin 1) q) = 0)
    (hstep : ∀ t s, step t s (ix2 (0 : Fin 1) q) = s (ix2 (0 : Fin 1) q) + ∑ r : Fin 5000, g (preArr0 V c (row0 t r) q))
    (h0 : ∀ h, acc 0 h = step ⟨0, h⟩ z) (hs : ∀ n h, acc (n + 1) h = step ⟨n + 1, h⟩ (acc n (Nat.lt_of_succ_lt h))) :
    copy0 (acc 19 last0) (ix2 (0 : Fin 1) q) = ∑ i : Fin 100000, g (preArr0 V c i q) := by
  have H : ∀ (n : ℕ) (h : n < cfg0.N), acc n h (ix2 (0 : Fin 1) q)
      = ∑ t : Fin (n + 1), ∑ r : Fin 5000, g (preArr0 V c (row0 ⟨t.val, Nat.lt_of_lt_of_le t.isLt h⟩ r) q) := by
    intro n
    induction n with
    | zero => intro h; rw [h0, hstep, hz, zero_add, Fin.sum_univ_castSucc (n := 0), Fin.sum_univ_zero, zero_add]; rfl
    | succ n ih => intro h; rw [hs, hstep, ih, Fin.sum_univ_castSucc (n := n + 1)]; rfl
  rw [copy0_eq, H]
  exact Cert.Spec.sum_tiles_mk' 20 5000 (by norm_num) (fun i => g (preArr0 V c i q)) fun t r => by have := t.isLt; have := r.isLt; omega

theorem flushed0_6_eq : (dat0 (F := Ideal) V c).flushed 6 t = ((cfg0.win 6).blk t).view.read (Elt Ideal) (hpreArr0 V c) := by
  show (cfg0.win 6).cut (grid0.coords t) ((dat0 (F := Ideal) V c).after 6 t) = _
  rw [after0_6, outsAt0_fst]
  unfold hpreAt0
  rw [(body0_eq ..).1]
  funext j
  obtain ⟨r, k, rfl⟩ : ∃ (r : Fin 5000) (k : Fin 128), j = ix2 r k := ⟨j 0, j 1, eq_ix2 j⟩
  refine (hpreBlk0_apply V c t k r).trans ?_
  exact (congrArg (hpreArr0 V c) (emb_row0 t (congrArg (· * 5000) (idx0 t).2.2.2) rfl r k)).symm

theorem val0_6 (p : Fin 100000) (q : Fin 128) : (dat0 (F := Ideal) V c).arrAt 6 cfg0.N (ix2 p q) = preArr0 V c p q := by
  have hp := p.isLt
  let t : Fin cfg0.N := ⟨p.val / 5000, by rw [show cfg0.N = 20 from N_0]; omega⟩
  have e : ((cfg0.win 6).blk t).view.emb (ix2 ⟨p.val % 5000, Nat.mod_lt _ (by decide)⟩ q) = ix2 p q :=
    (emb_row0 t (congrArg (· * 5000) (idx0 t).2.2.2) rfl _ _).trans
      (Shape.idx_ext₂ (by show 5000 * (p.val / 5000) + p.val % 5000 = p.val; omega) rfl)
  exact (dat0 (F := Ideal) V c).arrAt_apply_of_mem 6 (hpreArr0 V c) (fun t _ => flushed0_6_eq V c t) cfg0.N t _ t.isLt (flush0_6 t)
    (e ▸ ((cfg0.win 6).blk t).view.emb_mem_set _)

theorem last0_arr (w : Fin cfg0.W) (R : Buf (Elt Ideal) ((cfg0.win w).arr.view.loc (c.tc : Thread nD τ)))
    (hf : ∀ t : Fin cfg0.N, (cfg0.win w).flush t = true ↔ t.val % 20 = 19)
    (hR : (dat0 (F := Ideal) V c).flushed w tLast0 = ((cfg0.win w).blk tLast0).view.read (Elt Ideal) R)
    (hc : ∀ i, i ∈ ((cfg0.win w).blk tLast0).view.set) : (dat0 (F := Ideal) V c).arrAt w cfg0.N = R :=
  (dat0 (F := Ideal) V c).arrAt_eq_of_cover w R (fun t h => by
    obtain rfl : t = tLast0 := Fin.ext (by have := (hf t).mp h; have := lt0 t; show t.val = 19; omega)
    exact hR) fun i => ⟨tLast0, (hf _).mpr rfl, hc i⟩

theorem val0_7 : (dat0 (F := Ideal) V c).arrAt 7 cfg0.N (ix2 (0 : Fin 1) q) = ∑ i : Fin 100000, preArr0 V c i q := by
  have hz : (fun a => win0_7.index tLast0 a * main_v24_1.ty.shape.size a) = fun _ => 0 := zoff0 rfl _
  rw [last0_arr V c 7 _ flush0_7 (Memref.read_access_unit_zero (Elt Ideal) main_v24_1 hz _ (copy0 (accAt0 (F := Ideal) V c 19 last0).1)).symm fun i => by
    show i ∈ ((View.whole main_v24_1).slice (win0_7.rect tLast0)).set
    rw [View.set_slice_whole]; exact View.mem_set_unit_zero hz _ i]
  exact acc0_sum V c q id (fun n h => (accAt0 (F := Ideal) V c n h).1) zeroS0 (stepS0 V c) (zero0_apply q).1
    (fun t s => (congrFun ((body0_eq ..).2 s).1 _).trans ((pay0_5_apply ..).trans
      (congrArg (s _ + ·) (Finset.sum_congr rfl fun r _ => hpreBlk0_apply V c t q r))))
    (fun h => by rw [accAt0_zero]) fun n h => by rw [accAt0_succ]

theorem val0_8 : (dat0 (F := Ideal) V c).arrAt 8 cfg0.N (ix2 (0 : Fin 1) q) = ∑ i : Fin 100000, preArr0 V c i q * preArr0 V c i q := by
  have hz : (fun a => win0_8.index tLast0 a * main_v24_2.ty.shape.size a) = fun _ => 0 := zoff0 rfl _
  rw [last0_arr V c 8 _ flush0_8 (Memref.read_access_unit_zero (Elt Ideal) main_v24_2 hz _ (copy0 (accAt0 (F := Ideal) V c 19 last0).2)).symm fun i => by
    show i ∈ ((View.whole main_v24_2).slice (win0_8.rect tLast0)).set
    rw [View.set_slice_whole]; exact View.mem_set_unit_zero hz _ i]
  exact acc0_sum V c q (fun x => x * x) (fun n h => (accAt0 (F := Ideal) V c n h).2) zeroQ0 (stepQ0 V c) (zero0_apply q).2
    (fun t s => (congrFun ((body0_eq ..).2 s).2 _).trans ((pay0_1_apply s _ q).trans (congrArg (s _ + ·) ((pay0_6_apply ..).trans
      (Finset.sum_congr rfl fun r _ => congrArg₂ (· * ·) (hpreBlk0_apply V c t q r) (hpreBlk0_apply V c t q r))))))
    (fun h => by rw [accAt0_zero]) fun n h => by rw [accAt0_succ]

end Value0

end Cert.KernelIdeal.Hand
-- ==== Proof.Ideal.Val1.lean ====
import proofs.«176666_j61426622267897_1_alg».proof.Proof.Ideal.Bn1
import proofs.«176666_j61426622267897_1_alg».proof.Proof.Spec.KernelForm
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

section Value1
variable (V : (c : Dev nD) → (b : Ref sig .tc) → Buf (Elt Ideal) ((c : Thread nD τ).loc b)) (c : Dev nD)

abbrev harr1 : Vec Ideal S100000x128 .f32 := V c (Pipeline.arrRef spec1 0)
abbrev marr1 : Vec Ideal S1x128 .f32 := V c (Pipeline.arrRef spec1 1)
abbrev varr1 : Vec Ideal S1x128 .f32 := V c (Pipeline.arrRef spec1 2)
abbrev garr1 : Vec Ideal S1x128 .f32 := V c (Pipeline.arrRef spec1 3)
abbrev barr1 : Vec Ideal S1x128 .f32 := V c (Pipeline.arrRef spec1 4)

def bnArr1 (H : Vec Ideal S100000x128 .f32) (M Va Gm Be : Vec Ideal S1x128 .f32) : Vec Ideal S100000x128 .f32 :=
  fun i => Cert.Spec.bnK (n := 100000) (g := 128) (Ideal.ofBits .f32 0x3727C5AC#32) (fun a b => H (ix2 a b))
    (fun b => M (ix2 0 b)) (fun b => Va (ix2 0 b)) (fun b => Gm (ix2 0 b)) (fun b => Be (ix2 0 b)) (i 0) (i 1)

theorem hz1 : (![0, 0] : Fin 2 → Nat) = fun _ => 0 := funext fun a => by fin_cases a <;> rfl

theorem bcast1 (x : Vec Ideal S1x128 .f32) (r : Fin 5000) (q : Fin 128) :
    broadcastTo S5000x128 x broadcasts_S1x128_S5000x128 (ix2 r q) = x (ix2 0 q) :=
  broadcastTo_1b_ab_apply x broadcasts_S1x128_S5000x128 r q

-- Every operation of the payload is pointwise or a row broadcast, so at an index it is the normalisation of the entries there.
theorem pay1_eq_bnArr1 (x0 : Vec Ideal S5000x128 .f32) (x1 x2 x3 x4 : Vec Ideal S1x128 .f32) (H : Vec Ideal S100000x128 .f32)
    (j : S5000x128.Idx) (i : S100000x128.Idx) (hi1 : (i 1).val = (j 1).val) (h0 : x0 j = H i) :
    k1_pay1 (F := Ideal) x0 x1 x2 x3 x4 j = bnArr1 H x1 x2 x3 x4 i := by
  obtain ⟨r, q, rfl⟩ : ∃ (r : Fin 5000) (q : Fin 128), j = ix2 r q := ⟨j 0, j 1, eq_ix2 j⟩
  obtain ⟨p, q', rfl⟩ : ∃ (p : Fin 100000) (q' : Fin 128), i = ix2 p q' := ⟨i 0, i 1, eq_ix2 i⟩
  obtain rfl : q' = q := Fin.ext hi1
  unfold k1_pay1
  simp only [shapeCast_self]
  rw [maximumf_apply, addf_apply, mulf_apply, mulf_apply, subf_apply, broadcast_apply, bcast1, bcast1, bcast1, bcast1, h0,
    show (FloatOps.ofBits FTy.f32 0x00000000#32 : Ideal .f32) = 0 from Ideal.ofBits_zero_f32]
  rfl

theorem idx_facts1 : ∀ t : Fin cfg1.N,
    (∀ a, win1_1.index t a = 0) ∧ (∀ a, win1_2.index t a = 0) ∧ (∀ a, win1_3.index t a = 0) ∧ (∀ a, win1_4.index t a = 0)
    ∧ win1_0.index t (0 : Fin 2) = t.val ∧ win1_0.index t (1 : Fin 2) = 0
    ∧ win1_5.index t (0 : Fin 2) = t.val ∧ win1_5.index t (1 : Fin 2) = 0 :=
  (by decide +kernel : ∀ t : Fin grid1.N, _)

theorem iblk1_1_eq (t : Fin cfg1.N) : (iblk1 V c 1 t : Vec Ideal S1x128 .f32) = marr1 V c := by
  funext y
  show marr1 V c (((cfg1.win 1).blk t).view.emb y) = marr1 V c y
  exact congrArg _ (funext fun a => Fin.ext (win1_1.rect_emb_val_of_index_zero t a ((idx_facts1 t).1 a) y))
theorem iblk1_2_eq (t : Fin cfg1.N) : (iblk1 V c 2 t : Vec Ideal S1x128 .f32) = varr1 V c := by
  funext y
  show varr1 V c (((cfg1.win 2).blk t).view.emb y) = varr1 V c y
  exact congrArg _ (funext fun a => Fin.ext (win1_2.rect_emb_val_of_index_zero t a ((idx_facts1 t).2.1 a) y))
theorem iblk1_3_eq (t : Fin cfg1.N) : (iblk1 V c 3 t : Vec Ideal S1x128 .f32) = garr1 V c := by
  funext y
  show garr1 V c (((cfg1.win 3).blk t).view.emb y) = garr1 V c y
  exact congrArg _ (funext fun a => Fin.ext (win1_3.rect_emb_val_of_index_zero t a ((idx_facts1 t).2.2.1 a) y))
theorem iblk1_4_eq (t : Fin cfg1.N) : (iblk1 V c 4 t : Vec Ideal S1x128 .f32) = barr1 V c := by
  funext y
  show barr1 V c (((cfg1.win 4).blk t).view.emb y) = barr1 V c y
  exact congrArg _ (funext fun a => Fin.ext (win1_4.rect_emb_val_of_index_zero t a ((idx_facts1 t).2.2.2.1 a) y))

theorem iblk1_0_apply (t : Fin cfg1.N) (j : S5000x128.Idx) :
    (iblk1 V c 0 t : Vec Ideal S5000x128 .f32) j = harr1 V c (((cfg1.win 5).blk t).view.emb j) := by
  obtain ⟨-, -, -, -, e0, e1, e10, e11⟩ := idx_facts1 t
  show harr1 V c (((cfg1.win 0).blk t).view.emb j) = _
  refine congrArg _ (funext fun a => Fin.ext ?_)
  match a with
  | ⟨0, _⟩ => show win1_0.index t (0 : Fin 2) * 5000 + 1 * (j 0).val = win1_5.index t (0 : Fin 2) * 5000 + 1 * (j 0).val; omega
  | ⟨1, _⟩ => show win1_0.index t (1 : Fin 2) * 128 + 1 * (j 1).val = win1_5.index t (1 : Fin 2) * 128 + 1 * (j 1).val; omega

-- What point t writes back is block t of the whole-array function of the five arrays as the region finds them.
theorem flushed1_5_eq (t : Fin cfg1.N) :
    (dat1 (F := Ideal) V c).flushed 5 t
      = ((cfg1.win 5).blk t).view.read (Elt Ideal) (bnArr1 (harr1 V c) (marr1 V c) (varr1 V c) (garr1 V c) (barr1 V c)) := by
  show (cfg1.win 5).cut (grid1.coords t) ((dat1 (F := Ideal) V c).after 5 t) = _
  rw [after1_5]
  unfold out1_5
  rw [View.canon_unit_zero hz1]
  simp only [View.ld_unit_zero (S := S5000x128) hz1, View.ld_unit_zero (S := S1x128) hz1]
  rw [iblk1_1_eq, iblk1_2_eq, iblk1_3_eq, iblk1_4_eq]
  funext j
  exact pay1_eq_bnArr1 (iblk1 V c 0 t) _ _ _ _ (harr1 V c) j (((cfg1.win 5).blk t).view.emb j)
    (win1_5.rect_emb_val_of_index_zero t 1 (idx_facts1 t).2.2.2.2.2.2.2 j) (iblk1_0_apply V c t j)

-- Row p lies in the block of point p / 5000, so the 20 blocks of the output window cover its array.
theorem cover1_5_arr (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  have ht : t.val = (i 0).val / 5000 := rfl
  obtain ⟨-, -, -, -, -, -, e10, e11⟩ := idx_facts1 t
  refine ⟨t, flush1_5 t, ?_⟩
  show i ∈ ((View.whole main_v33).slice (win1_5.rect t)).set
  rw [View.set_slice_whole, Rect.mem_set_unit]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

theorem val1 (p : Fin 100000) (q : Fin 128) :
    (dat1 (F := Ideal) V c).arrAt 5 cfg1.N (ix2 p q)
      = Cert.Spec.bnK (Ideal.ofBits .f32 0x3727C5AC#32) (fun i j => V c (Pipeline.arrRef spec1 0) (ix2 i j))
          (fun j => V c (Pipeline.arrRef spec1 1) (ix2 0 j)) (fun j => V c (Pipeline.arrRef spec1 2) (ix2 0 j))
          (fun j => V c (Pipeline.arrRef spec1 3) (ix2 0 j)) (fun j => V c (Pipeline.arrRef spec1 4) (ix2 0 j)) p q := by
  rw [(dat1 (F := Ideal) V c).arrAt_eq_of_cover 5 (bnArr1 (harr1 V c) (marr1 V c) (varr1 V c) (garr1 V c) (barr1 V c))
    (fun t _ => flushed1_5_eq V c t) cover1_5_arr]
  rfl

end Value1

end Cert.KernelIdeal.Hand
-- ==== Proof.Ideal.HostStages.lean ====
import proofs.«176666_j61426622267897_1_alg».proof.Proof.Gen.KernelIdeal.Launch

noncomputable section

namespace Cert.KernelIdeal.Hand

open Cert.KernelIdeal Cert.KernelIdeal.Gen Idealize.ShloMosaic

variable {F : FTy → Type} [FloatOps F]

abbrev Arr (F : FTy → Type) (s : Shape) (e : EltTy) : Type := (⟨s, e⟩ : BufTy).Contents (Elt F)

def kSrc (ei : Arr F S2x1600000 .i32) : Arr F S1600000 .i32 :=
  shapeCast S1600000 (extractStridedSlice S1x1600000 ![0, 0] ei slices_S2x1600000_S1x1600000_0_0)
    shapeCasts_S1x1600000_S1600000

def kDst (ei : Arr F S2x1600000 .i32) : Arr F S1600000 .i32 :=
  shapeCast S1600000 (extractStridedSlice S1x1600000 ![1, 0] ei slices_S2x1600000_S1x1600000_1_0)
    shapeCasts_S1x1600000_S1600000

def kScatterIdx (dst : Arr F S1600000 .i32) : Arr F S1600000x1 .i32 :=
  broadcastInDim S1600000x1 ![0] bcast_S1600000_S1600000x1_0 dst

def kGatherIdx (src : Arr F S1600000 .i32) : Arr F S1600000x1 .i32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

def kDegS (dst : Arr F S1600000 .i32) : Arr F S100000 .f32 :=
  maximumf
    (Host.scatterAdd scatter_S100000_S1600000x1_S1600000_n_0_0_1
      (broadcastInDim S100000 ![] bcast_S_S100000 (constant S_ .f32 0x00000000#32))
      (kScatterIdx (F := F) dst)
      (broadcastInDim S1600000 ![] bcast_S_S1600000 (constant S_ .f32 0x3F800000#32)))
    (broadcastInDim S100000 ![] bcast_S_S100000 (constant S_ .f32 0x3F800000#32))

def kDeg (ei : Arr F S2x1600000 .i32) : Arr F S100000 .f32 := kDegS (kDst (F := F) ei)

def kDegInv (ei : Arr F S2x1600000 .i32) : Arr F S100000x1 .f32 :=
  shapeCast S100000x1
    (Host.divf (broadcastInDim S100000 ![] bcast_S_S100000 (constant S_ .f32 0x3F800000#32)) (kDeg (F := F) ei))
    shapeCasts_S100000_S100000x1

def kAggS64 (x : Arr F S100000x64 .f32) (src dst : Arr F S1600000 .i32) : Arr F S100000x64 .f32 :=
  Host.scatterAdd scatter_S100000x64_S1600000x1_S1600000x64_1_0_0_1
    (broadcastInDim S100000x64 ![] bcast_S_S100000x64 (constant S_ .f32 0x00000000#32))
    (kScatterIdx (F := F) dst)
    (Host.gather gather_S100000x64_S1600000x1_S1600000x64_1_0_n_n_0_1_164 x (kGatherIdx (F := F) src))

def kAgg64 (x : Arr F S100000x64 .f32) (ei : Arr F S2x1600000 .i32) : Arr F S100000x64 .f32 :=
  kAggS64 x (kSrc (F := F) ei) (kDst (F := F) ei)

def kRow128 (b : Arr F S128 .f32) : Arr F S1x128 .f32 := shapeCast S1x128 b shapeCasts_S128_S1x128

def kRow40 (b : Arr F S40 .f32) : Arr F S1x40 .f32 := shapeCast S1x40 b shapeCasts_S40_S1x40

def kMean (s : Arr F S1x128 .f32) : Arr F S1x128 .f32 :=
  Host.divf s (broadcastInDim S1x128 ![] bcast_S_S1x128 (constant S_ .f32 0x47C35000#32))

def kVar (s ss : Arr F S1x128 .f32) : Arr F S1x128 .f32 :=
  subf (Host.divf ss (broadcastInDim S1x128 ![] bcast_S_S1x128 (constant S_ .f32 0x47C35000#32)))
    (mulf (kMean (F := F) s) (kMean (F := F) s))

def kAggS128 (h : Arr F S100000x128 .f32) (src dst : Arr F S1600000 .i32) : Arr F S100000x128 .f32 :=
  Host.scatterAdd scatter_S100000x128_S1600000x1_S1600000x128_1_0_0_1
    (broadcastInDim S100000x128 ![] bcast_S_S100000x128 (constant S_ .f32 0x00000000#32))
    (kScatterIdx (F := F) dst)
    (Host.gather gather_S100000x128_S1600000x1_S1600000x128_1_0_n_n_0_1_1128 h (kGatherIdx (F := F) src))

def kAgg128 (h : Arr F S100000x128 .f32) (ei : Arr F S2x1600000 .i32) : Arr F S100000x128 .f32 :=
  kAggS128 h (kSrc (F := F) ei) (kDst (F := F) ei)

end Cert.KernelIdeal.Hand

end
-- ==== Proof.Ref.Stages.lean ====
import proofs.«176666_j61426622267897_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev Arr (F : FTy → Type) (s : Shape) (e : EltTy) : Type := (⟨s, e⟩ : BufTy).Contents (Elt F)

def refSrc (ei : Arr F S2x1600000 .i32) : Arr F S1600000 .i32 :=
  shapeCast S1600000 (extractStridedSlice S1x1600000 ![0, 0] ei slices_S2x1600000_S1x1600000_0_0) shapeCasts_S1x1600000_S1600000

def refDst (ei : Arr F S2x1600000 .i32) : Arr F S1600000 .i32 :=
  shapeCast S1600000 (extractStridedSlice S1x1600000 ![1, 0] ei slices_S2x1600000_S1x1600000_1_0) shapeCasts_S1x1600000_S1600000

def refGatherIdx (src : Arr F S1600000 .i32) : Arr F S1600000x1 .i32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

def refScatterIdx (dst : Arr F S1600000 .i32) : Arr F S1600000x1 .i32 :=
  broadcastInDim S1600000x1 ![0] bcast_S1600000_S1600000x1_0 dst

def refDegS (dst : Arr F S1600000 .i32) : Arr F S100000 .f32 :=
  maximumf
    (Host.scatterAdd scatter_S100000_S1600000x1_S1600000_n_0_0_1
      (broadcastInDim S100000 ![] bcast_S_S100000 (constant S_ .f32 0x00000000#32))
      (refScatterIdx (F := F) dst)
      (broadcastInDim S1600000 ![] bcast_S_S1600000 (constant S_ .f32 0x3F800000#32)))
    (broadcastInDim S100000 ![] bcast_S_S100000 (constant S_ .f32 0x3F800000#32))

def refDeg (ei : Arr F S2x1600000 .i32) : Arr F S100000 .f32 := refDegS (refDst (F := F) ei)

def refAggS64 (x : Arr F S100000x64 .f32) (src dst : Arr F S1600000 .i32) : Arr F S100000x64 .f32 :=
  Host.scatterAdd scatter_S100000x64_S1600000x1_S1600000x64_1_0_0_1
    (broadcastInDim S100000x64 ![] bcast_S_S100000x64 (constant S_ .f32 0x00000000#32))
    (refScatterIdx (F := F) dst)
    (Host.gather gather_S100000x64_S1600000x1_S1600000x64_1_0_n_n_0_1_164 x (refGatherIdx (F := F) src))

def refAgg64 (x : Arr F S100000x64 .f32) (ei : Arr F S2x1600000 .i32) : Arr F S100000x64 .f32 :=
  refAggS64 x (refSrc (F := F) ei) (refDst (F := F) ei)

def refAggS128 (h : Arr F S100000x128 .f32) (src dst : Arr F S1600000 .i32) : Arr F S100000x128 .f32 :=
  Host.scatterAdd scatter_S100000x128_S1600000x1_S1600000x128_1_0_0_1
    (broadcastInDim S100000x128 ![] bcast_S_S100000x128 (constant S_ .f32 0x00000000#32))
    (refScatterIdx (F := F) dst)
    (Host.gather gather_S100000x128_S1600000x1_S1600000x128_1_0_n_n_0_1_1128 h (refGatherIdx (F := F) src))

def refAgg128 (h : Arr F S100000x128 .f32) (ei : Arr F S2x1600000 .i32) : Arr F S100000x128 .f32 :=
  refAggS128 h (refSrc (F := F) ei) (refDst (F := F) ei)

def refRows128 (v : Arr F S128 .f32) : Arr F S100000x128 .f32 :=
  broadcastInDim S100000x128 ![0, 1] bcast_S1x128_S100000x128_0_1 (broadcastInDim S1x128 ![1] bcast_S128_S1x128_1 v)

def refPreS64 (x : Arr F S100000x64 .f32) (src dst : Arr F S1600000 .i32) (Wl Wr : Arr F S64x128 .f32) (b : Arr F S128 .f32) :
    Arr F S100000x128 .f32 :=
  addf
    (addf
      (Host.dotGeneral dot_S100000x64_S64x128_S100000x128_1_0_0_1_n_n none
        (Host.divf (refAggS64 x src dst)
          (broadcastInDim S100000x64 ![0, 1] bcast_S100000x1_S100000x64_0_1
            (broadcastInDim S100000x1 ![0] bcast_S100000_S100000x1_0 (refDegS (F := F) dst))))
        Wl)
      (Host.dotGeneral dot_S100000x64_S64x128_S100000x128_1_0_0_1_n_n none x Wr))
    (refRows128 b)

def refPre64 (x : Arr F S100000x64 .f32) (ei : Arr F S2x1600000 .i32) (Wl Wr : Arr F S64x128 .f32) (b : Arr F S128 .f32) :
    Arr F S100000x128 .f32 :=
  refPreS64 x (refSrc (F := F) ei) (refDst (F := F) ei) Wl Wr b

def refPreS128 (h : Arr F S100000x128 .f32) (src dst : Arr F S1600000 .i32) (Wl Wr : Arr F S128x128 .f32) (b : Arr F S128 .f32) :
    Arr F S100000x128 .f32 :=
  addf
    (addf
      (Host.dotGeneral dot_S100000x128_S128x128_S100000x128_1_0_0_1_n_n none
        (Host.divf (refAggS128 h src dst)
          (broadcastInDim S100000x128 ![0, 1] bcast_S100000x1_S100000x128_0_1
            (broadcastInDim S100000x1 ![0] bcast_S100000_S100000x1_0 (refDegS (F := F) dst))))
        Wl)
      (Host.dotGeneral dot_S100000x128_S128x128_S100000x128_1_0_0_1_n_n none h Wr))
    (refRows128 b)

def refPre128 (h : Arr F S100000x128 .f32) (ei : Arr F S2x1600000 .i32) (Wl Wr : Arr F S128x128 .f32) (b : Arr F S128 .f32) :
    Arr F S100000x128 .f32 :=
  refPreS128 h (refSrc (F := F) ei) (refDst (F := F) ei) Wl Wr b

def refColSum (t : Arr F S100000x128 .f32) : Arr F S128 .f32 :=
  Host.reduceAdd t (constant S_ .f32 0x00000000#32) reducesTo_S100000x128_S128_d0 h_S_

def refMean (hpre : Arr F S100000x128 .f32) : Arr F S128 .f32 :=
  Host.divf (refColSum hpre) (broadcastInDim S128 ![] bcast_S_S128 (constant S_ .f32 0x47C35000#32))

def refVarDen : Arr F S_ .f32 :=
  subf (constant S_ .f32 0x47C35000#32) (sitofp (F := F) .f32 (constantI S_ 32 0#32))

def refSqDev (hpre : Arr F S100000x128 .f32) : Arr F S100000x128 .f32 :=
  mulf
    (subf hpre (broadcastInDim S100000x128 ![0, 1] bcast_S1x128_S100000x128_0_1
      (Host.divf (broadcastInDim S1x128 ![1] bcast_S128_S1x128_1 (refColSum hpre))
        (broadcastInDim S1x128 ![] bcast_S_S1x128 (constant S_ .f32 0x47C35000#32)))))
    (subf hpre (broadcastInDim S100000x128 ![0, 1] bcast_S1x128_S100000x128_0_1
      (Host.divf (broadcastInDim S1x128 ![1] bcast_S128_S1x128_1 (refColSum hpre))
        (broadcastInDim S1x128 ![] bcast_S_S1x128 (constant S_ .f32 0x47C35000#32)))))

def refVar (hpre : Arr F S100000x128 .f32) : Arr F S128 .f32 :=
  select
    (broadcastInDim S128 ![] bcast_S_S128 (cmpf (F := F) .ogt (refVarDen (F := F)) (constant S_ .f32 0x00000000#32)))
    (Host.divf (refColSum (refSqDev hpre)) (broadcastInDim S128 ![] bcast_S_S128 (refVarDen (F := F))))
    (broadcastInDim S128 ![] bcast_S_S128 (id (constant S_ .f32 0x7FC00000#32)))

def refBnRelu (hpre : Arr F S100000x128 .f32) (g be : Arr F S128 .f32) : Arr F S100000x128 .f32 :=
  maximumf
    (addf
      (mulf
        (mulf (subf hpre (refRows128 (refMean hpre)))
          (refRows128 (Host.rsqrt (addf (refVar hpre) (broadcastInDim S128 ![] bcast_S_S128 (constant S_ .f32 0x3727C5AC#32))))))
        (refRows128 g))
      (refRows128 be))
    (broadcastInDim S100000x128 ![] bcast_S_S100000x128 (constant S_ .f32 0x00000000#32))

def refLogits (h : Arr F S100000x128 .f32) (Wm1 : Arr F S128x128 .f32) (bm1 : Arr F S128 .f32) (Wm2 : Arr F S128x40 .f32)
    (bm2 : Arr F S40 .f32) : Arr F S100000x40 .f32 :=
  addf
    (Host.dotGeneral dot_S100000x128_S128x40_S100000x40_1_0_0_1_n_n none
      (addf (Host.dotGeneral dot_S100000x128_S128x128_S100000x128_1_0_0_1_n_n none h Wm1) (refRows128 bm1))
      Wm2)
    (broadcastInDim S100000x40 ![0, 1] bcast_S1x40_S100000x40_0_1 (broadcastInDim S1x40 ![1] bcast_S40_S1x40_1 bm2))

def refShifted (z : Arr F S100000x40 .f32) : Arr F S100000x40 .f32 :=
  subf z
    (broadcastInDim S100000x40 ![0, 1] bcast_S100000x1_S100000x40_0_1
      (broadcastInDim S100000x1 ![0] bcast_S100000_S100000x1_0
        (maximumf (broadcastInDim S100000 ![] bcast_S_S100000 (constant S_ .f32 0xFF800000#32))
          (Host.reduce FloatOps.maximumf z (constant S_ .f32 0xFF800000#32) reducesTo_S100000x40_S100000_d1 h_S_))))

def refLogSoftmax (z : Arr F S100000x40 .f32) : Arr F S100000x40 .f32 :=
  subf (refShifted z)
    (broadcastInDim S100000x40 ![0, 1] bcast_S100000x1_S100000x40_0_1
      (Host.log (broadcastInDim S100000x1 ![0] bcast_S100000_S100000x1_0
        (Host.reduceAdd (Host.exp (refShifted z)) (constant S_ .f32 0x00000000#32) reducesTo_S100000x40_S100000_d1 h_S_))))

def refHead (h : Arr F S100000x128 .f32) (Wm1 : Arr F S128x128 .f32) (bm1 : Arr F S128 .f32) (Wm2 : Arr F S128x40 .f32)
    (bm2 : Arr F S40 .f32) : Arr F S100000x40 .f32 :=
  refLogSoftmax (refLogits h Wm1 bm1 Wm2 bm2)

end Cert.ReferenceIdeal.Hand

end
-- ==== Proof.Spec.Consts.lean ====
import Idealize.ShloMosaic.PureOps.Ideal
import Idealize.ShloMosaic.PureOps.Ideal.Laws

noncomputable section

namespace Cert.Spec

open Idealize.ShloMosaic

theorem ofBits_N : Ideal.ofBits .f32 0x47C35000#32 = ((100000 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_eps : ∃ e : ℝ, 0 < e ∧ Ideal.ofBits .f32 0x3727C5AC#32 = (e : EReal) := by
  refine ⟨(1 * ((2 ^ 23 + 2606508 : ℕ) : ℝ) * (2 : ℝ) ^ ((110 : ℤ) - (2 ^ (8 - 1) - 1) - (23 : ℕ))), by positivity, ?_⟩
  simp [Ideal.ofBits, Ideal.ieee, -EReal.coe_mul]

theorem ofBits_neg_inf : Ideal.ofBits .f32 0xFF800000#32 = ⊥ := by
  simp [Ideal.ofBits, Ideal.ieee]

end Cert.Spec

end
-- ==== Proof.Ideal.HostRead.lean ====
import proofs.«176666_j61426622267897_1_alg».proof.Proof.Ideal.HostStages
import proofs.«176666_j61426622267897_1_alg».proof.Proof.Ref.Stages
import proofs.«176666_j61426622267897_1_alg».proof.Proof.Spec.Consts
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.ValueIdx

theorem hostDivf_apply {s : Shape} (x y : FVec Ideal s .f32) (i : s.Idx) :
    Host.divf x y i = Ideal.div (x i) (y i) := rfl

theorem bcast_const_apply {s : Shape} (h : S_.BroadcastsInDim s (![] : Fin 0 → Fin s.rank)) (b : BitVec 32) (i : s.Idx) :
    broadcastInDim s ![] h (constant (F := Ideal) S_ .f32 b) i = Ideal.ofBits .f32 b := rfl

theorem kDeg_eq (ei : Arr Ideal S2x1600000 .i32) :
    kDeg (F := Ideal) ei = Cert.ReferenceIdeal.Hand.refDeg (F := Ideal) ei := rfl

theorem kRow128_apply (v : Arr Ideal S128 .f32) (j : Fin 128) :
    kRow128 (F := Ideal) v (ix2 0 j) = v (ix1 j) :=
  shapeCast_a_1a_apply v shapeCasts_S128_S1x128 0 j

theorem kRow40_apply (v : Arr Ideal S40 .f32) (j : Fin 40) :
    kRow40 (F := Ideal) v (ix2 0 j) = v (ix1 j) :=
  shapeCast_a_1a_apply v shapeCasts_S40_S1x40 0 j

theorem kMean_apply (s : Arr Ideal S1x128 .f32) (j : Fin 128) :
    kMean (F := Ideal) s (ix2 0 j) = Ideal.div (s (ix2 0 j)) ((100000 : ℝ) : EReal) := by
  unfold kMean
  show Ideal.div (s (ix2 0 j)) (Ideal.ofBits .f32 0x47C35000#32) = _
  rw [Cert.Spec.ofBits_N]

theorem kVar_apply (s ss : Arr Ideal S1x128 .f32) (j : Fin 128) :
    kVar (F := Ideal) s ss (ix2 0 j)
      = Ideal.div (ss (ix2 0 j)) ((100000 : ℝ) : EReal) - kMean (F := Ideal) s (ix2 0 j) * kMean (F := Ideal) s (ix2 0 j) := by
  unfold kVar
  show Ideal.div (ss (ix2 0 j)) (Ideal.ofBits .f32 0x47C35000#32)
      - kMean (F := Ideal) s (ix2 0 j) * kMean (F := Ideal) s (ix2 0 j) = _
  rw [Cert.Spec.ofBits_N]

theorem kDegInv_apply (ei : Arr Ideal S2x1600000 .i32) (p : Fin 100000) :
    kDegInv (F := Ideal) ei (ix2 p 0) = Ideal.div 1 (Cert.ReferenceIdeal.Hand.refDeg (F := Ideal) ei (ix1 p)) := by
  unfold kDegInv
  rw [shapeCast_apply _ _ (ix2 p 0) (ix1 p) (by
    rw [Shape.rowMajor_val_one, Shape.rowMajor_val_two]
    show p.val = p.val * 1 + (0 : Fin 1).val
    simp)]
  rw [hostDivf_apply, bcast_const_apply, Cert.Spec.ofBits_one, EReal.coe_one, kDeg_eq]

theorem kAgg64_eq (x : Arr Ideal S100000x64 .f32) (ei : Arr Ideal S2x1600000 .i32) :
    kAgg64 (F := Ideal) x ei = Cert.ReferenceIdeal.Hand.refAgg64 (F := Ideal) x ei := rfl

theorem kAgg128_eq (h : Arr Ideal S100000x128 .f32) (ei : Arr Ideal S2x1600000 .i32) :
    kAgg128 (F := Ideal) h ei = Cert.ReferenceIdeal.Hand.refAgg128 (F := Ideal) h ei := rfl

end Cert.KernelIdeal.Hand

end
-- ==== Proof.Spec.KernelLayer.lean ====
import proofs.«176666_j61426622267897_1_alg».proof.Proof.Spec.KernelForm
import proofs.«176666_j61426622267897_1_alg».proof.Proof.Spec.Algebra
import proofs.«176666_j61426622267897_1_alg».proof.Proof.Spec.Stats

noncomputable section

namespace Cert.Spec

open Idealize.ShloMosaic

variable {n f g : ℕ}

theorem kernel_layer (N : ℝ) (hN : N = (n : ℝ)) (hN0 : N ≠ 0) {eps : EReal}
    (heps : ∃ e : ℝ, 0 < e ∧ eps = (e : EReal))
    (agg x : Fin n → Fin f → EReal) (d dinv : Fin n → EReal) (Wl Wr : Fin f → Fin g → EReal)
    (b gm be : Fin g → EReal) (hagg : ∀ i, IsReal (agg i)) (hx : ∀ i, IsReal (x i))
    (hd : ∀ i, ∃ r : ℝ, r ≠ 0 ∧ d i = (r : EReal)) (hdinv : ∀ i, dinv i = Ideal.div 1 (d i))
    (hWl : ∀ k, IsReal (Wl k)) (hWr : ∀ k, IsReal (Wr k)) (hb : IsReal b) (hgm : IsReal gm) (hbe : IsReal be)
    (mean var : Fin g → EReal)
    (hmean : ∀ j, mean j = Ideal.div (∑ i, preK agg x dinv Wl Wr b i j) (N : EReal))
    (hvar : ∀ j, var j = Ideal.div (∑ i, preK agg x dinv Wl Wr b i j * preK agg x dinv Wl Wr b i j) (N : EReal)
      - mean j * mean j) :
    bnK eps (preK agg x dinv Wl Wr b) mean var gm be = bnRelu (N : EReal) eps (pre agg x d Wl Wr b) gm be
    ∧ ∀ i, IsReal (bnRelu (N : EReal) eps (pre agg x d Wl Wr b) gm be i) := by
  have hK : preK agg x dinv Wl Wr b = pre agg x d Wl Wr b := by
    funext i j
    obtain ⟨r, hr, hdi⟩ := hd i
    simp only [preK, pre, hdinv i, hdi, mul_inv_eq_div _ hr]
  rw [hK] at hmean hvar ⊢
  have hP : ∀ j, IsReal (fun i => pre agg x d Wl Wr b i j) := fun j i =>
    real_add (real_add (real_sum _ fun k _ => real_mul (real_div' (hagg i k) (hd i)) (hWl k j))
      (real_sum _ fun k _ => real_mul (hx i k) (hWr k j))) (hb j)
  have hN' : N = (Fintype.card (Fin n) : ℝ) := by rw [Fintype.card_fin]; exact hN
  have hm : mean = colMean (N : EReal) (pre agg x d Wl Wr b) := funext fun j => hmean j
  have hv : var = colVar (N : EReal) (pre agg x d Wl Wr b) := by
    funext j
    rw [hvar j, hmean j]
    exact (variance_eq (hP j) hN' hN0).symm
  refine ⟨by rw [bnRelu_eq_bnK, hm, hv], fun i j => ?_⟩
  simp only [bnRelu, colVar, colMean]
  exact bn_real (hP j i) (mean_real (hP j) hN0) (msd_real (hP j) hN' hN0) heps (hgm j) (hbe j)

end Cert.Spec

end
-- ==== Proof.Ref.Read.lean ====
import proofs.«176666_j61426622267897_1_alg».proof.Proof.Ref.Stages
import proofs.«176666_j61426622267897_1_alg».proof.Proof.Spec.Layers
import proofs.«176666_j61426622267897_1_alg».proof.Proof.Spec.Consts
import Idealize.ShloMosaic.Lib.ValueIdx
import Idealize.ShloMosaic.Lib.Pipeline.Value
import Idealize.ShloMosaic.Lib.StackMember
import Idealize.ShloMosaic.PureOps.Ideal.Laws

noncomputable section

namespace Cert.ReferenceIdeal.Hand

open Cert.ReferenceIdeal Cert.ReferenceIdeal.Gen Idealize.ShloMosaic Idealize.ShloMosaic.ValueIdx

theorem refRows128_apply (v : Arr Ideal S128 .f32) (p : Fin 100000) (q : Fin 128) :
    refRows128 (F := Ideal) v (ix2 p q) = v (ix1 q) := by
  unfold refRows128
  rw [broadcastInDim_apply _ _ _ (ix2 p q) (ix2 (0 : Fin 1) q)
    (by intro a; match a with | ⟨0, _⟩ => rfl | ⟨1, _⟩ => rfl)]
  rw [broadcastInDim_apply _ _ _ (ix2 (0 : Fin 1) q) (ix1 q)
    (by intro a; match a with | ⟨0, _⟩ => rfl)]

-- A scalar repeated over any shape reads the scalar.
theorem bcastS_apply {α : Type} {t : Shape} (h : S_.BroadcastsInDim t (![] : Fin 0 → Fin t.rank)) (c : S_.Idx → α) (j : t.Idx) :
    broadcastInDim t ![] h c j = c ix0 :=
  broadcastInDim_apply _ _ _ j ix0 fun a => a.elim0

theorem red_cols : S100000x128.Reduces [0] S128 := by decide
theorem red_rows : S100000x40.Reduces [1] S100000 := by decide

theorem lift_cols (q : Fin 128) (k : Fin 100000) : red_cols.lift (ix1 q) k = ix2 k q := by
  funext a; apply Fin.ext
  match a with
  | ⟨0, _⟩ => rfl
  | ⟨1, _⟩ => rfl

theorem lift_rows (p : Fin 100000) (k : Fin 40) : red_rows.lift (ix1 p) k = ix2 p k := by
  funext a; apply Fin.ext
  match a with
  | ⟨0, _⟩ => rfl
  | ⟨1, _⟩ => rfl

theorem refColSum_apply (t : Arr Ideal S100000x128 .f32) (q : Fin 128) :
    refColSum (F := Ideal) t (ix1 q) = ∑ k : Fin 100000, t (ix2 k q) := by
  unfold refColSum
  show Ideal.hostReduceAdd reducesTo_S100000x128_S128_d0 t (Ideal.ofBits .f32 0x00000000#32) (ix1 q) = _
  rw [Ideal.hostReduceAdd_single reducesTo_S100000x128_S128_d0 red_cols, Ideal.ofBits_zero_f32, zero_add]
  exact Finset.sum_congr rfl fun k _ => congrArg t (lift_cols q k)

theorem dot64_eq : dot_S100000x64_S64x128_S100000x128_1_0_0_1_n_n = DotDims.plain 100000 64 128 := rfl
theorem dot128_eq : dot_S100000x128_S128x128_S100000x128_1_0_0_1_n_n = DotDims.plain 100000 128 128 := rfl
theorem dot40_eq : dot_S100000x128_S128x40_S100000x40_1_0_0_1_n_n = DotDims.plain 100000 128 40 := rfl

theorem bcastCol_apply {α : Type} (d : S100000.Idx → α) (p : Fin 100000) :
    broadcastInDim S100000x1 ![0] bcast_S100000_S100000x1_0 d (ix2 p (0 : Fin 1)) = d (ix1 p) := by
  rw [broadcastInDim_apply _ _ _ (ix2 p (0 : Fin 1)) (ix1 p) (by intro a; match a with | ⟨0, _⟩ => rfl)]

-- A column repeated along `w` features reads the column.
theorem bcastCols_apply {α : Type} {w : Nat} (h : S100000x1.BroadcastsInDim ⟨2, ![100000, w]⟩ ![0, 1]) (v : S100000x1.Idx → α) (p : Fin 100000)
    (c : Fin w) : broadcastInDim ⟨2, ![100000, w]⟩ ![0, 1] h v (ix2 p c) = v (ix2 p (0 : Fin 1)) := by
  rw [broadcastInDim_apply _ _ _ (ix2 p c) (ix2 p (0 : Fin 1))
    (by intro a; match a with | ⟨0, _⟩ => rfl | ⟨1, _⟩ => rfl)]

theorem hostDivf_apply {s : Shape} (a b : FVec Ideal s .f32) (i : s.Idx) : Host.divf a b i = Ideal.div (a i) (b i) := rfl

theorem refPre64_apply (x : Arr Ideal S100000x64 .f32) (ei : Arr Ideal S2x1600000 .i32) (Wl Wr : Arr Ideal S64x128 .f32)
    (b : Arr Ideal S128 .f32) (p : Fin 100000) (q : Fin 128) :
    refPre64 (F := Ideal) x ei Wl Wr b (ix2 p q)
      = Cert.Spec.pre (fun i k => refAgg64 (F := Ideal) x ei (ix2 i k)) (fun i k => x (ix2 i k))
          (fun i => refDeg (F := Ideal) ei (ix1 i)) (fun k j => Wl (ix2 k j)) (fun k j => Wr (ix2 k j))
          (fun j => b (ix1 j)) p q := by
  unfold refPre64 refPreS64 refAgg64 refDeg Cert.Spec.pre
  generalize refAggS64 (F := Ideal) x (refSrc (F := Ideal) ei) (refDst (F := Ideal) ei) = A
  generalize refDegS (F := Ideal) (refDst (F := Ideal) ei) = d
  rw [addf_apply, addf_apply, dot64_eq, StackMember.dotGeneral_plain_apply, StackMember.dotGeneral_plain_apply, refRows128_apply]
  refine congrArg₂ HAdd.hAdd (congrArg₂ HAdd.hAdd (Finset.sum_congr rfl fun c _ => ?_) rfl) rfl
  rw [hostDivf_apply, bcastCols_apply, bcastCol_apply]

theorem refPre128_apply (h : Arr Ideal S100000x128 .f32) (ei : Arr Ideal S2x1600000 .i32) (Wl Wr : Arr Ideal S128x128 .f32)
    (b : Arr Ideal S128 .f32) (p : Fin 100000) (q : Fin 128) :
    refPre128 (F := Ideal) h ei Wl Wr b (ix2 p q)
      = Cert.Spec.pre (fun i k => refAgg128 (F := Ideal) h ei (ix2 i k)) (fun i k => h (ix2 i k))
          (fun i => refDeg (F := Ideal) ei (ix1 i)) (fun k j => Wl (ix2 k j)) (fun k j => Wr (ix2 k j))
          (fun j => b (ix1 j)) p q := by
  unfold refPre128 refPreS128 refAgg128 refDeg Cert.Spec.pre
  generalize refAggS128 (F := Ideal) h (refSrc (F := Ideal) ei) (refDst (F := Ideal) ei) = A
  generalize refDegS (F := Ideal) (refDst (F := Ideal) ei) = d
  rw [addf_apply, addf_apply, dot128_eq, StackMember.dotGeneral_plain_apply, StackMember.dotGeneral_plain_apply, refRows128_apply]
  refine congrArg₂ HAdd.hAdd (congrArg₂ HAdd.hAdd (Finset.sum_congr rfl fun c _ => ?_) rfl) rfl
  rw [hostDivf_apply, bcastCols_apply, bcastCol_apply]

theorem hostRsqrt_apply {s : Shape} (a : FVec Ideal s .f32) (i : s.Idx) : Host.rsqrt a i = Ideal.rsqrt (a i) := rfl

theorem bcastRow_apply {α : Type} (v : S128.Idx → α) (q : Fin 128) :
    broadcastInDim S1x128 ![1] bcast_S128_S1x128_1 v (ix2 (0 : Fin 1) q) = v (ix1 q) := by
  rw [broadcastInDim_apply _ _ _ (ix2 (0 : Fin 1) q) (ix1 q) (by intro a; match a with | ⟨0, _⟩ => rfl)]

theorem bcastRows_apply {α : Type} (w : S1x128.Idx → α) (p : Fin 100000) (q : Fin 128) :
    broadcastInDim S100000x128 ![0, 1] bcast_S1x128_S100000x128_0_1 w (ix2 p q) = w (ix2 (0 : Fin 1) q) := by
  rw [broadcastInDim_apply _ _ _ (ix2 p q) (ix2 (0 : Fin 1) q)
    (by intro a; match a with | ⟨0, _⟩ => rfl | ⟨1, _⟩ => rfl)]

theorem refMean_apply (hpre : Arr Ideal S100000x128 .f32) (q : Fin 128) :
    refMean (F := Ideal) hpre (ix1 q) = Cert.Spec.colMean ((100000 : ℝ) : EReal) (fun i j => hpre (ix2 i j)) q := by
  unfold refMean Cert.Spec.colMean
  rw [hostDivf_apply, refColSum_apply, bcastS_apply, constant_apply, Cert.Spec.ofBits_N]

theorem refVarDen_apply : refVarDen (F := Ideal) ix0 = ((100000 : ℝ) : EReal) := by
  unfold refVarDen
  rw [subf_apply, constant_apply, Cert.Spec.ofBits_N]
  show ((100000 : ℝ) : EReal) - ((((0#32 : BitVec 32).toInt : ℤ) : ℝ) : EReal) = _
  simp

theorem refSqDev_apply (hpre : Arr Ideal S100000x128 .f32) (k : Fin 100000) (q : Fin 128) :
    refSqDev (F := Ideal) hpre (ix2 k q)
      = (hpre (ix2 k q) - Cert.Spec.colMean ((100000 : ℝ) : EReal) (fun i j => hpre (ix2 i j)) q)
        * (hpre (ix2 k q) - Cert.Spec.colMean ((100000 : ℝ) : EReal) (fun i j => hpre (ix2 i j)) q) := by
  unfold refSqDev Cert.Spec.colMean
  rw [mulf_apply, subf_apply, bcastRows_apply, hostDivf_apply, bcastRow_apply, bcastS_apply, refColSum_apply,
    constant_apply, Cert.Spec.ofBits_N]

theorem cmp_N_pos : FloatOps.cmpf (F := Ideal) (φ := .f32) .ogt ((100000 : ℝ) : EReal) (0 : EReal) = 1#1 := by
  have hpos : (0 : EReal) < ((100000 : ℝ) : EReal) := EReal.coe_pos.mpr (by norm_num)
  show BitVec.ofBool (decide ((0 : EReal) < ((100000 : ℝ) : EReal))) = 1#1
  rw [decide_eq_true hpos]; rfl

theorem refVar_apply (hpre : Arr Ideal S100000x128 .f32) (q : Fin 128) :
    refVar (F := Ideal) hpre (ix1 q) = Cert.Spec.colVar ((100000 : ℝ) : EReal) (fun i j => hpre (ix2 i j)) q := by
  unfold refVar Cert.Spec.colVar
  rw [select_apply, bcastS_apply, bcastS_apply, cmpf_apply, refVarDen_apply, constant_apply,
    Ideal.ofBits_zero_f32, cmp_N_pos, select_one, hostDivf_apply, refColSum_apply, bcastS_apply, refVarDen_apply]
  simp only [refSqDev_apply]

theorem refBnRelu_apply (hpre : Arr Ideal S100000x128 .f32) (g be : Arr Ideal S128 .f32) (p : Fin 100000) (q : Fin 128) :
    refBnRelu (F := Ideal) hpre g be (ix2 p q)
      = Cert.Spec.bnRelu ((100000 : ℝ) : EReal) (Ideal.ofBits .f32 0x3727C5AC#32) (fun i j => hpre (ix2 i j))
          (fun j => g (ix1 j)) (fun j => be (ix1 j)) p q := by
  unfold refBnRelu Cert.Spec.bnRelu
  simp only [maximumf_apply, addf_apply, mulf_apply, subf_apply, refRows128_apply, hostRsqrt_apply, refMean_apply, refVar_apply]
  rw [bcastS_apply, constant_apply, bcastS_apply, constant_apply, Ideal.ofBits_zero_f32]

theorem hostExp_apply {s : Shape} (a : FVec Ideal s .f32) (i : s.Idx) : Host.exp a i = Ideal.exp (a i) := rfl
theorem hostLog_apply {s : Shape} (a : FVec Ideal s .f32) (i : s.Idx) : Host.log a i = Ideal.log (a i) := rfl

theorem bcastBias40_apply {α : Type} (v : S40.Idx → α) (p : Fin 100000) (q : Fin 40) :
    broadcastInDim S100000x40 ![0, 1] bcast_S1x40_S100000x40_0_1 (broadcastInDim S1x40 ![1] bcast_S40_S1x40_1 v) (ix2 p q)
      = v (ix1 q) := by
  rw [broadcastInDim_apply _ _ _ (ix2 p q) (ix2 (0 : Fin 1) q)
    (by intro a; match a with | ⟨0, _⟩ => rfl | ⟨1, _⟩ => rfl)]
  rw [broadcastInDim_apply _ _ _ (ix2 (0 : Fin 1) q) (ix1 q) (by intro a; match a with | ⟨0, _⟩ => rfl)]

theorem refLogits_apply (h : Arr Ideal S100000x128 .f32) (Wm1 : Arr Ideal S128x128 .f32) (bm1 : Arr Ideal S128 .f32)
    (Wm2 : Arr Ideal S128x40 .f32) (bm2 : Arr Ideal S40 .f32) (p : Fin 100000) (q : Fin 40) :
    refLogits (F := Ideal) h Wm1 bm1 Wm2 bm2 (ix2 p q)
      = Cert.Spec.lin (Cert.Spec.lin (fun i k => h (ix2 i k)) (fun k j => Wm1 (ix2 k j)) (fun j => bm1 (ix1 j)))
          (fun k j => Wm2 (ix2 k j)) (fun j => bm2 (ix1 j)) p q := by
  unfold refLogits Cert.Spec.lin
  rw [addf_apply, dot40_eq, StackMember.dotGeneral_plain_apply, bcastBias40_apply]
  refine congrArg₂ HAdd.hAdd (Finset.sum_congr rfl fun c _ => ?_) rfl
  rw [addf_apply, dot128_eq, StackMember.dotGeneral_plain_apply, refRows128_apply]

theorem refRowSum_apply (t : Arr Ideal S100000x40 .f32) (p : Fin 100000) :
    Host.reduceAdd (F := Ideal) (φ := .f32) t (constant S_ .f32 0x00000000#32) reducesTo_S100000x40_S100000_d1 h_S_ (ix1 p)
      = ∑ k : Fin 40, t (ix2 p k) := by
  show Ideal.hostReduceAdd reducesTo_S100000x40_S100000_d1 t (Ideal.ofBits .f32 0x00000000#32) (ix1 p) = _
  rw [Ideal.hostReduceAdd_single reducesTo_S100000x40_S100000_d1 red_rows, Ideal.ofBits_zero_f32, zero_add]
  exact Finset.sum_congr rfl fun k _ => congrArg t (lift_rows p k)

theorem refShifted_apply (z : Arr Ideal S100000x40 .f32) (p : Fin 100000) (q : Fin 40) :
    refShifted (F := Ideal) z (ix2 p q) = z (ix2 p q) - Cert.Spec.rowMax (fun i j => z (ix2 i j)) p := by
  unfold refShifted Cert.Spec.rowMax
  rw [subf_apply, bcastCols_apply, bcastCol_apply, maximumf_apply, bcastS_apply, constant_apply,
    Cert.Spec.ofBits_neg_inf,
    Host.reduce_eq_fold_single (FloatOps.maximumf (F := Ideal) (φ := .f32)) (z : FVec Ideal S100000x40 .f32)
      (constant (F := Ideal) S_ .f32 0xFF800000#32) reducesTo_S100000x40_S100000_d1 red_rows h_S_ (ix1 p)]
  have hf : (z ∘ red_rows.lift (ix1 p)) = fun j : Fin 40 => z (ix2 p j) :=
    funext fun k => congrArg z (lift_rows p k)
  rw [hf]
  show z (ix2 p q) - max ⊥ (Finset.fold max (Ideal.ofBits .f32 0xFF800000#32) (fun j : Fin 40 => z (ix2 p j)) Finset.univ) = _
  rw [Cert.Spec.ofBits_neg_inf]

theorem refLogSoftmax_apply (z : Arr Ideal S100000x40 .f32) (p : Fin 100000) (q : Fin 40) :
    refLogSoftmax (F := Ideal) z (ix2 p q) = Cert.Spec.logSoftmax (fun i j => z (ix2 i j)) p q := by
  unfold refLogSoftmax Cert.Spec.logSoftmax
  rw [subf_apply, refShifted_apply, bcastCols_apply, hostLog_apply, bcastCol_apply, refRowSum_apply]
  simp only [hostExp_apply, refShifted_apply]

theorem refHead_apply (h : Arr Ideal S100000x128 .f32) (Wm1 : Arr Ideal S128x128 .f32) (bm1 : Arr Ideal S128 .f32)
    (Wm2 : Arr Ideal S128x40 .f32) (bm2 : Arr Ideal S40 .f32) (p : Fin 100000) (q : Fin 40) :
    refHead (F := Ideal) h Wm1 bm1 Wm2 bm2 (ix2 p q)
      = Cert.Spec.logSoftmax
          (Cert.Spec.lin (Cert.Spec.lin (fun i k => h (ix2 i k)) (fun k j => Wm1 (ix2 k j)) (fun j => bm1 (ix1 j)))
            (fun k j => Wm2 (ix2 k j)) (fun j => bm2 (ix1 j))) p q := by
  unfold refHead
  rw [refLogSoftmax_apply]
  simp only [refLogits_apply]

end Cert.ReferenceIdeal.Hand

end
-- ==== Proof.Spec.Graph.lean ====
import proofs.«176666_j61426622267897_1_alg».proof.Proof.Spec.Algebra
import proofs.«176666_j61426622267897_1_alg».proof.Proof.Spec.Consts
import Idealize.ShloMosaic.PureOps.Ideal
import Idealize.ShloMosaic.PureOps.Ideal.Laws
import Idealize.ShloMosaic.PureOps.Contract

noncomputable section

namespace Cert.Spec

open Idealize.ShloMosaic

section Graph

variable {s si t u : Shape} {w : Nat} {φ : FTy}

theorem gather_real (d : GatherDims s si t) {x : s.Idx → EReal} (hx : IsReal x) (idx : IVec si w) :
    IsReal (Host.gather d x idx) := fun j => hx (d.operandIdx j idx)

theorem scatterAdd_real (d : ScatterDims s si u) {x : FVec Ideal s φ} {upd : FVec Ideal u φ}
    (hx : IsReal x) (hu : IsReal upd) (idx : IVec si w) :
    IsReal (Host.scatterAdd (F := Ideal) d x idx upd) := fun i => by
  show ∃ r : ℝ, Ideal.hostScatterAdd d x idx upd i = (r : EReal)
  unfold Ideal.hostScatterAdd
  exact real_add (hx i) (real_sum _ fun j _ => hu j)

theorem sum_ones {κ : Type*} (S : Finset κ) : ∑ _j ∈ S, (1 : EReal) = ((S.card : ℝ) : EReal) := by
  have h : ∑ _j ∈ S, ((1 : ℝ) : EReal) = ((S.card : ℝ) : EReal) := by
    rw [← coe_sum, Finset.sum_const, nsmul_eq_mul, mul_one]
  exact h

theorem max_count_one {κ : Type*} (S : Finset κ) :
    ∃ r : ℝ, 1 ≤ r ∧ max (0 + ∑ _j ∈ S, (1 : EReal)) 1 = (r : EReal) := by
  refine ⟨max (S.card : ℝ) 1, le_max_right _ _, ?_⟩
  rw [zero_add, sum_ones, coe_max, EReal.coe_one]

theorem ne_zero_of_one_le {x : EReal} (h : ∃ r : ℝ, 1 ≤ r ∧ x = (r : EReal)) :
    ∃ r : ℝ, r ≠ 0 ∧ x = (r : EReal) := by
  obtain ⟨r, hr, e⟩ := h
  exact ⟨r, (lt_of_lt_of_le one_pos hr).ne', e⟩

theorem real_inv_of_ne_zero {x : EReal} (h : ∃ r : ℝ, r ≠ 0 ∧ x = (r : EReal)) :
    ∃ r : ℝ, Ideal.div 1 x = (r : EReal) :=
  real_div' real_one h

theorem zeros_eq {s₀ : Shape} (t₀ : Shape) (dims : Fin s₀.rank → Fin t₀.rank) (h : s₀.BroadcastsInDim t₀ dims) :
    broadcastInDim t₀ dims h (constant (F := Ideal) s₀ .f32 0x00000000#32) = fun _ => (0 : EReal) := by
  funext _
  show Ideal.ofBits .f32 0x00000000#32 = 0
  exact Ideal.ofBits_zero_f32

theorem ones_eq {s₀ : Shape} (t₀ : Shape) (dims : Fin s₀.rank → Fin t₀.rank) (h : s₀.BroadcastsInDim t₀ dims) :
    broadcastInDim t₀ dims h (constant (F := Ideal) s₀ .f32 0x3F800000#32) = fun _ => (1 : EReal) := by
  funext _
  show Ideal.ofBits .f32 0x3F800000#32 = 1
  rw [ofBits_one, EReal.coe_one]

theorem maximumf_apply (a b : FVec Ideal s φ) (i : s.Idx) :
    maximumf (F := Ideal) a b i = max (a i) (b i) := rfl

theorem deg_ge_one_spelled (d : ScatterDims s si u) (idx : IVec si w) {s₀ s₁ s₂ : Shape}
    (dims₀ : Fin s₀.rank → Fin s.rank) (h₀ : s₀.BroadcastsInDim s dims₀)
    (dims₁ : Fin s₁.rank → Fin u.rank) (h₁ : s₁.BroadcastsInDim u dims₁)
    (dims₂ : Fin s₂.rank → Fin s.rank) (h₂ : s₂.BroadcastsInDim s dims₂) (i : s.Idx) :
    ∃ r : ℝ, 1 ≤ r ∧
      maximumf (F := Ideal)
        (Host.scatterAdd (F := Ideal) d (broadcastInDim s dims₀ h₀ (constant (F := Ideal) s₀ .f32 0x00000000#32)) idx
          (broadcastInDim u dims₁ h₁ (constant (F := Ideal) s₁ .f32 0x3F800000#32)))
        (broadcastInDim s dims₂ h₂ (constant (F := Ideal) s₂ .f32 0x3F800000#32)) i = (r : EReal) := by
  rw [maximumf_apply, zeros_eq, ones_eq, ones_eq]
  show ∃ r : ℝ, 1 ≤ r ∧ max (Ideal.hostScatterAdd d (fun _ => (0 : EReal)) idx (fun _ => (1 : EReal)) i) 1 = (r : EReal)
  unfold Ideal.hostScatterAdd
  exact max_count_one _

theorem deg_ne_zero_spelled (d : ScatterDims s si u) (idx : IVec si w) {s₀ s₁ s₂ : Shape}
    (dims₀ : Fin s₀.rank → Fin s.rank) (h₀ : s₀.BroadcastsInDim s dims₀)
    (dims₁ : Fin s₁.rank → Fin u.rank) (h₁ : s₁.BroadcastsInDim u dims₁)
    (dims₂ : Fin s₂.rank → Fin s.rank) (h₂ : s₂.BroadcastsInDim s dims₂) (i : s.Idx) :
    ∃ r : ℝ, r ≠ 0 ∧
      maximumf (F := Ideal)
        (Host.scatterAdd (F := Ideal) d (broadcastInDim s dims₀ h₀ (constant (F := Ideal) s₀ .f32 0x00000000#32)) idx
          (broadcastInDim u dims₁ h₁ (constant (F := Ideal) s₁ .f32 0x3F800000#32)))
        (broadcastInDim s dims₂ h₂ (constant (F := Ideal) s₂ .f32 0x3F800000#32)) i = (r : EReal) :=
  ne_zero_of_one_le (deg_ge_one_spelled d idx dims₀ h₀ dims₁ h₁ dims₂ h₂ i)

end Graph

end Cert.Spec

end
-- ==== Proof.Ref.Real.lean ====
import proofs.«176666_j61426622267897_1_alg».proof.Proof.Ref.Stages
import proofs.«176666_j61426622267897_1_alg».proof.Proof.Spec.Graph

noncomputable section

namespace Cert.ReferenceIdeal.Hand

open Cert.ReferenceIdeal Cert.ReferenceIdeal.Gen Idealize.ShloMosaic Cert.Spec

-- A gather of real rows accumulated from zero is real.
theorem refAgg64_real (x : Arr Ideal S100000x64 .f32) (ei : Arr Ideal S2x1600000 .i32) (hx : IsReal x) :
    IsReal (refAgg64 (F := Ideal) x ei) := by
  unfold refAgg64 refAggS64
  exact scatterAdd_real _ (by rw [zeros_eq]; exact IsReal.zero) (gather_real _ hx _) _

theorem refAgg128_real (h : Arr Ideal S100000x128 .f32) (ei : Arr Ideal S2x1600000 .i32) (hh : IsReal h) :
    IsReal (refAgg128 (F := Ideal) h ei) := by
  unfold refAgg128 refAggS128
  exact scatterAdd_real _ (by rw [zeros_eq]; exact IsReal.zero) (gather_real _ hh _) _

-- A count of ones, not below one, is a nonzero real.
theorem refDeg_ne_zero (ei : Arr Ideal S2x1600000 .i32) (i : S100000.Idx) :
    ∃ r : ℝ, r ≠ 0 ∧ refDeg (F := Ideal) ei i = (r : EReal) := by
  unfold refDeg refDegS
  exact deg_ne_zero_spelled _ _ _ _ _ _ _ _ i

end Cert.ReferenceIdeal.Hand

end
-- ==== Proof.Ideal.Chain1.lean ====
import proofs.«176666_j61426622267897_1_alg».proof.Proof.Ideal.Val0
import proofs.«176666_j61426622267897_1_alg».proof.Proof.Ideal.Val1
import proofs.«176666_j61426622267897_1_alg».proof.Proof.Ideal.HostRead
import proofs.«176666_j61426622267897_1_alg».proof.Proof.Spec.KernelLayer
import proofs.«176666_j61426622267897_1_alg».proof.Proof.Spec.Consts
import proofs.«176666_j61426622267897_1_alg».proof.Proof.Ref.Read
import proofs.«176666_j61426622267897_1_alg».proof.Proof.Ref.Real
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open Cert.ReferenceIdeal.Hand (refDeg refAgg64 refPre64 refBnRelu refPre64_apply refBnRelu_apply refAgg64_real refDeg_ne_zero)
open Cert.Spec

-- Normalising the reciprocal-form pre-activation by the mean and variance of its column sums is the specification's layer when every datum is real.
theorem layer_of {f : ℕ} (A X : Fin 100000 → Fin f → EReal) (ei : Arr Ideal S2x1600000 .i32)
    (Wl Wr : Fin f → Fin 128 → EReal) (b g be : Fin 128 → EReal)
    (hA : ∀ i, IsReal (A i)) (hX : ∀ i, IsReal (X i)) (hWl : ∀ k, IsReal (Wl k)) (hWr : ∀ k, IsReal (Wr k))
    (hb : IsReal b) (hg : IsReal g) (hbe : IsReal be)
    (P : Fin 100000 → Fin 128 → EReal)
    (hP : P = preK A X (fun i => kDegInv (F := Ideal) ei (ix2 i 0)) Wl Wr b)
    (S Q : Arr Ideal S1x128 .f32) (hS : ∀ j, S (ix2 0 j) = ∑ i, P i j) (hQ : ∀ j, Q (ix2 0 j) = ∑ i, P i j * P i j)
    (out ref : Arr Ideal S100000x128 .f32)
    (hout : ∀ p q, out (ix2 p q) = bnK (Ideal.ofBits .f32 0x3727C5AC#32) P (fun j => kMean (F := Ideal) S (ix2 0 j))
      (fun j => kVar (F := Ideal) S Q (ix2 0 j)) g be p q)
    (href : ∀ p q, ref (ix2 p q) = bnRelu ((100000 : ℝ) : EReal) (Ideal.ofBits .f32 0x3727C5AC#32)
      (pre A X (fun i => refDeg (F := Ideal) ei (ix1 i)) Wl Wr b) g be p q) :
    out = ref ∧ IsReal ref := by
  subst hP
  have KL := kernel_layer (n := 100000) (100000 : ℝ) (by norm_num) (by norm_num) ofBits_eps A X
    (fun i => refDeg (F := Ideal) ei (ix1 i)) (fun i => kDegInv (F := Ideal) ei (ix2 i 0)) Wl Wr b g be hA hX
    (fun i => refDeg_ne_zero ei _) (fun i => kDegInv_apply ei i) hWl hWr hb hg hbe
    (fun j => kMean (F := Ideal) S (ix2 0 j)) (fun j => kVar (F := Ideal) S Q (ix2 0 j))
    (fun j => by rw [kMean_apply, hS]) (fun j => by rw [kVar_apply, hQ])
  refine ⟨funext fun j => ?_, fun j => ?_⟩ <;>
    obtain ⟨p, q, rfl⟩ : ∃ (p : Fin 100000) (q : Fin 128), j = ix2 p q := ⟨j 0, j 1, eq_ix2 (n0 := 100000) (n1 := 128) j⟩
  · rw [hout, href, KL.1]
  · rw [href]; exact KL.2 _ _

variable (V V' : (c : Dev nD) → (b : Ref sig .tc) → Buf (Elt Ideal) ((c : Thread nD τ).loc b)) (c : Dev nD)

set_option maxHeartbeats 1000000 in
theorem layer1 (x : Arr Ideal S100000x64 .f32) (ei : Arr Ideal S2x1600000 .i32) (Wl Wr : Arr Ideal S64x128 .f32)
    (b g be : Arr Ideal S128 .f32)
    (hx : IsReal x) (hWl : IsReal Wl) (hWr : IsReal Wr) (hb : IsReal b) (hg : IsReal g) (hbe : IsReal be)
    (e0 : V c (Pipeline.arrRef spec0 0) = kAgg64 (F := Ideal) x ei)
    (e1 : V c (Pipeline.arrRef spec0 1) = x)
    (e2 : V c (Pipeline.arrRef spec0 2) = kDegInv (F := Ideal) ei)
    (e3 : V c (Pipeline.arrRef spec0 3) = Wl)
    (e4 : V c (Pipeline.arrRef spec0 4) = Wr)
    (e5 : V c (Pipeline.arrRef spec0 5) = kRow128 (F := Ideal) b)
    (f0 : V' c (Pipeline.arrRef spec1 0) = (dat0 (F := Ideal) V c).arrAt 6 cfg0.N)
    (f1 : V' c (Pipeline.arrRef spec1 1) = kMean (F := Ideal) ((dat0 (F := Ideal) V c).arrAt 7 cfg0.N))
    (f2 : V' c (Pipeline.arrRef spec1 2)
      = kVar (F := Ideal) ((dat0 (F := Ideal) V c).arrAt 7 cfg0.N) ((dat0 (F := Ideal) V c).arrAt 8 cfg0.N))
    (f3 : V' c (Pipeline.arrRef spec1 3) = kRow128 (F := Ideal) g)
    (f4 : V' c (Pipeline.arrRef spec1 4) = kRow128 (F := Ideal) be) :
    (dat1 (F := Ideal) V' c).arrAt 5 cfg1.N = refBnRelu (F := Ideal) (refPre64 (F := Ideal) x ei Wl Wr b) g be
      ∧ IsReal (refBnRelu (F := Ideal) (refPre64 (F := Ideal) x ei Wl Wr b) g be) :=
  layer_of (fun i k => refAgg64 (F := Ideal) x ei (ix2 i k)) (fun i k => x (ix2 i k)) ei (fun k j => Wl (ix2 k j))
    (fun k j => Wr (ix2 k j)) (fun j => b (ix1 j)) (fun j => g (ix1 j)) (fun j => be (ix1 j))
    (fun i k => refAgg64_real x ei hx _) (fun i k => hx _) (fun k j => hWl _) (fun k j => hWr _) (fun j => hb _)
    (fun j => hg _) (fun j => hbe _) (preArr0 V c)
    (by rw [preArr0_eq]; simp only [e0, e1, e2, e3, e4, e5, kAgg64_eq, kRow128_apply])
    ((dat0 (F := Ideal) V c).arrAt 7 cfg0.N) ((dat0 (F := Ideal) V c).arrAt 8 cfg0.N) (val0_7 V c) (val0_8 V c) _ _
    (fun p q => by rw [val1]; simp only [f0, f1, f2, f3, f4, kRow128_apply, val0_6])
    (fun p q => by rw [refBnRelu_apply]; simp only [refPre64_apply])

end Cert.KernelIdeal.Hand

end
-- ==== Proof.Ideal.Pay2.lean ====
import proofs.«176666_j61426622267897_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StackMember

set_option maxRecDepth 16384

noncomputable section

namespace Cert.KernelIdeal.Hand

open Cert.KernelIdeal Cert.KernelIdeal.Gen
open Idealize.ShloMosaic Idealize.SL.Sem
open Idealize.ShloMosaic.ValueIdx

-- The dimension numbers are the plain product's, so at an index the product is the sum over the contracted coordinate.
theorem mm2_apply (a : FVec Ideal S5000x128 .f32) (w : FVec Ideal S128x128 .f32) (r : Fin 5000) (q : Fin 128) :
    matmul dot_S5000x128_S128x128_S5000x128_1_0_0_1_n_n none a w (constant (F := Ideal) S5000x128 .f32 0x00000000#32) (ix2 r q)
      = ∑ k : Fin 128, a (ix2 r k) * w (ix2 k q) := by
  simp only [matmul]
  rw [Ideal.matmul_constant_zero_apply]
  exact (Ideal.dotGeneral_apply (DotDims.plain 5000 128 128) none _ a w (ix2 r q)).symm.trans
    (StackMember.dotGeneral_plain_apply none a w r q)

theorem bcastCol2_apply (v : FVec Ideal S5000x1 .f32) (r : Fin 5000) (k : Fin 128) :
    broadcastTo S5000x128 v broadcasts_S5000x1_S5000x128 (ix2 r k) = v (ix2 r (0 : Fin 1)) := by
  refine broadcastTo_apply v broadcasts_S5000x1_S5000x128 (ix2 r k) (ix2 r (0 : Fin 1)) fun ax => ?_
  match ax with
  | ⟨0, _⟩ => rfl
  | ⟨1, _⟩ => rfl

theorem colsum2_apply (src : FVec Ideal S5000x128 .f32) (hacc : (0x00000000#32 : BitVec 32) = 0x00000000#32) (q : Fin 128) :
    multiReduction (F := Ideal) .add [0] S128 src 0x00000000#32 reduces_S5000x128_S128 (.inl rfl) hacc (ix1 q)
      = ∑ r : Fin 5000, src (ix2 r q) := by
  refine (Ideal.multiReduction_add_single src 0x00000000#32 reduces_S5000x128_S128 (.inl rfl) hacc (ix1 q)).trans ?_
  refine Finset.sum_congr rfl fun r _ => congrArg src ?_
  funext a
  match a with
  | ⟨0, _⟩ => rfl
  | ⟨1, _⟩ => rfl

variable (a : Vec Ideal S5000x128 .f32) (dv : Vec Ideal S5000x1 .f32) (wl : Vec Ideal S128x128 .f32)
  (x : Vec Ideal S5000x128 .f32) (wr : Vec Ideal S128x128 .f32) (b : Vec Ideal S1x128 .f32)

theorem pay2_4_apply (r : Fin 5000) (q : Fin 128) :
    k2_pay4 (F := Ideal) a dv wl x wr b (ix2 r q)
      = ((∑ k : Fin 128, (a (ix2 r k) * dv (ix2 r (0 : Fin 1))) * wl (ix2 k q)) + ∑ k : Fin 128, x (ix2 r k) * wr (ix2 k q))
          + b (ix2 (0 : Fin 1) q) := by
  unfold k2_pay4
  simp only [shapeCast_self]
  refine (addf_apply _ _ _).trans ?_
  refine congrArg₂ (· + ·) ?_ (broadcastTo_1b_ab_apply b broadcasts_S1x128_S5000x128 r q)
  refine (addf_apply _ _ _).trans ?_
  refine congrArg₂ (· + ·) ((mm2_apply _ _ r q).trans ?_) (mm2_apply _ _ r q)
  refine Finset.sum_congr rfl fun k _ => ?_
  refine congrArg (· * wl (ix2 k q)) ?_
  refine (mulf_apply _ _ _).trans ?_
  exact congrArg (a (ix2 r k) * ·) (bcastCol2_apply dv r k)

theorem pay2_5_apply (s : Vec Ideal S1x128 .f32) (q : Fin 128) :
    k2_pay5 (F := Ideal) a dv wl x wr b s (ix2 (0 : Fin 1) q)
      = s (ix2 (0 : Fin 1) q) + ∑ r : Fin 5000, k2_pay4 (F := Ideal) a dv wl x wr b (ix2 r q) := by
  unfold k2_pay5
  simp only [shapeCast_self]
  refine (addf_apply _ _ _).trans ?_
  refine congrArg (s (ix2 (0 : Fin 1) q) + ·) ?_
  refine (shapeCast_a_1a_apply _ shapeCasts_S128_S1x128 (0 : Fin 1) q).trans ?_
  exact colsum2_apply _ rfl q

theorem pay2_6_apply (q : Fin 128) :
    multiReduction (F := Ideal) .add [0] S128 (k2_pay6 (F := Ideal) a dv wl x wr b) 0x00000000#32 reduces_S5000x128_S128 (.inl rfl) rfl (ix1 q)
      = ∑ r : Fin 5000, k2_pay4 (F := Ideal) a dv wl x wr b (ix2 r q) * k2_pay4 (F := Ideal) a dv wl x wr b (ix2 r q) := by
  unfold k2_pay6
  refine (colsum2_apply _ rfl q).trans ?_
  rfl

theorem pay2_1_apply (s : Vec Ideal S1x128 .f32) (v : FVec Ideal S5000x128 .f32) (q : Fin 128) :
    k2_pay1 (F := Ideal) s v (ix2 (0 : Fin 1) q)
      = s (ix2 (0 : Fin 1) q) + multiReduction (F := Ideal) .add [0] S128 v 0x00000000#32 reduces_S5000x128_S128 (.inl rfl) rfl (ix1 q) := by
  unfold k2_pay1
  simp only [shapeCast_self]
  refine (addf_apply _ _ _).trans ?_
  exact congrArg (s (ix2 (0 : Fin 1) q) + ·) (shapeCast_a_1a_apply _ shapeCasts_S128_S1x128 (0 : Fin 1) q)

theorem pay2_2_apply (q : Fin 128) : k2_pay2 (F := Ideal) (ix2 (0 : Fin 1) q) = 0 := by
  unfold k2_pay2
  simp only [shapeCast_self]
  exact Ideal.ofBits_zero_f32
theorem pay2_3_apply (q : Fin 128) : k2_pay3 (F := Ideal) (ix2 (0 : Fin 1) q) = 0 := by
  unfold k2_pay3
  simp only [shapeCast_self]
  exact Ideal.ofBits_zero_f32

end Cert.KernelIdeal.Hand
-- ==== Proof.Ideal.Chain2.lean ====
import proofs.«176666_j61426622267897_1_alg».proof.Proof.Ideal.Val2
import proofs.«176666_j61426622267897_1_alg».proof.Proof.Ideal.Val3
import proofs.«176666_j61426622267897_1_alg».proof.Proof.Ideal.Chain1

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open Cert.ReferenceIdeal.Hand (refDeg refAgg128 refPre128 refBnRelu refPre128_apply refBnRelu_apply refAgg128_real refDeg_ne_zero)
open Cert.Spec

variable (V V' : (c : Dev nD) → (b : Ref sig .tc) → Buf (Elt Ideal) ((c : Thread nD τ).loc b)) (c : Dev nD)

set_option maxHeartbeats 1000000 in
theorem layer2 (x : Arr Ideal S100000x128 .f32) (ei : Arr Ideal S2x1600000 .i32) (Wl Wr : Arr Ideal S128x128 .f32)
    (b g be : Arr Ideal S128 .f32)
    (hx : IsReal x) (hWl : IsReal Wl) (hWr : IsReal Wr) (hb : IsReal b) (hg : IsReal g) (hbe : IsReal be)
    (e0 : V c (Pipeline.arrRef spec2 0) = kAgg128 (F := Ideal) x ei)
    (e1 : V c (Pipeline.arrRef spec2 1) = x)
    (e2 : V c (Pipeline.arrRef spec2 2) = kDegInv (F := Ideal) ei)
    (e3 : V c (Pipeline.arrRef spec2 3) = Wl)
    (e4 : V c (Pipeline.arrRef spec2 4) = Wr)
    (e5 : V c (Pipeline.arrRef spec2 5) = kRow128 (F := Ideal) b)
    (f0 : V' c (Pipeline.arrRef spec3 0) = (dat2 (F := Ideal) V c).arrAt 6 cfg2.N)
    (f1 : V' c (Pipeline.arrRef spec3 1) = kMean (F := Ideal) ((dat2 (F := Ideal) V c).arrAt 7 cfg2.N))
    (f2 : V' c (Pipeline.arrRef spec3 2)
      = kVar (F := Ideal) ((dat2 (F := Ideal) V c).arrAt 7 cfg2.N) ((dat2 (F := Ideal) V c).arrAt 8 cfg2.N))
    (f3 : V' c (Pipeline.arrRef spec3 3) = kRow128 (F := Ideal) g)
    (f4 : V' c (Pipeline.arrRef spec3 4) = kRow128 (F := Ideal) be) :
    (dat3 (F := Ideal) V' c).arrAt 5 cfg3.N = refBnRelu (F := Ideal) (refPre128 (F := Ideal) x ei Wl Wr b) g be
      ∧ IsReal (refBnRelu (F := Ideal) (refPre128 (F := Ideal) x ei Wl Wr b) g be) :=
  layer_of (fun i k => refAgg128 (F := Ideal) x ei (ix2 i k)) (fun i k => x (ix2 i k)) ei (fun k j => Wl (ix2 k j))
    (fun k j => Wr (ix2 k j)) (fun j => b (ix1 j)) (fun j => g (ix1 j)) (fun j => be (ix1 j))
    (fun i k => refAgg128_real x ei hx _) (fun i k => hx _) (fun k j => hWl _) (fun k j => hWr _) (fun j => hb _)
    (fun j => hg _) (fun j => hbe _) (preArr2 V c)
    (by rw [preArr2_eq]; simp only [e0, e1, e2, e3, e4, e5, kAgg128_eq, kRow128_apply])
    ((dat2 (F := Ideal) V c).arrAt 7 cfg2.N) ((dat2 (F := Ideal) V c).arrAt 8 cfg2.N) (val2_7 V c) (val2_8 V c) _ _
    (fun p q => by rw [val3]; simp only [f0, f1, f2, f3, f4, kRow128_apply, val2_6])
    (fun p q => by rw [refBnRelu_apply]; simp only [refPre128_apply])

end Cert.KernelIdeal.Hand

end
-- ==== Proof.Ideal.Chain3.lean ====
import proofs.«176666_j61426622267897_1_alg».proof.Proof.Ideal.Val4
import proofs.«176666_j61426622267897_1_alg».proof.Proof.Ideal.Val5
import proofs.«176666_j61426622267897_1_alg».proof.Proof.Ideal.Chain1

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open Cert.ReferenceIdeal.Hand (refDeg refAgg128 refPre128 refBnRelu refPre128_apply refBnRelu_apply refAgg128_real refDeg_ne_zero)
open Cert.Spec

variable (V V' : (c : Dev nD) → (b : Ref sig .tc) → Buf (Elt Ideal) ((c : Thread nD τ).loc b)) (c : Dev nD)

set_option maxHeartbeats 1000000 in
theorem layer3 (x : Arr Ideal S100000x128 .f32) (ei : Arr Ideal S2x1600000 .i32) (Wl Wr : Arr Ideal S128x128 .f32)
    (b g be : Arr Ideal S128 .f32)
    (hx : IsReal x) (hWl : IsReal Wl) (hWr : IsReal Wr) (hb : IsReal b) (hg : IsReal g) (hbe : IsReal be)
    (e0 : V c (Pipeline.arrRef spec4 0) = kAgg128 (F := Ideal) x ei)
    (e1 : V c (Pipeline.arrRef spec4 1) = x)
    (e2 : V c (Pipeline.arrRef spec4 2) = kDegInv (F := Ideal) ei)
    (e3 : V c (Pipeline.arrRef spec4 3) = Wl)
    (e4 : V c (Pipeline.arrRef spec4 4) = Wr)
    (e5 : V c (Pipeline.arrRef spec4 5) = kRow128 (F := Ideal) b)
    (f0 : V' c (Pipeline.arrRef spec5 0) = (dat4 (F := Ideal) V c).arrAt 6 cfg4.N)
    (f1 : V' c (Pipeline.arrRef spec5 1) = kMean (F := Ideal) ((dat4 (F := Ideal) V c).arrAt 7 cfg4.N))
    (f2 : V' c (Pipeline.arrRef spec5 2)
      = kVar (F := Ideal) ((dat4 (F := Ideal) V c).arrAt 7 cfg4.N) ((dat4 (F := Ideal) V c).arrAt 8 cfg4.N))
    (f3 : V' c (Pipeline.arrRef spec5 3) = kRow128 (F := Ideal) g)
    (f4 : V' c (Pipeline.arrRef spec5 4) = kRow128 (F := Ideal) be) :
    (dat5 (F := Ideal) V' c).arrAt 5 cfg5.N = refBnRelu (F := Ideal) (refPre128 (F := Ideal) x ei Wl Wr b) g be
      ∧ IsReal (refBnRelu (F := Ideal) (refPre128 (F := Ideal) x ei Wl Wr b) g be) :=
  layer_of (fun i k => refAgg128 (F := Ideal) x ei (ix2 i k)) (fun i k => x (ix2 i k)) ei (fun k j => Wl (ix2 k j))
    (fun k j => Wr (ix2 k j)) (fun j => b (ix1 j)) (fun j => g (ix1 j)) (fun j => be (ix1 j))
    (fun i k => refAgg128_real x ei hx _) (fun i k => hx _) (fun k j => hWl _) (fun k j => hWr _) (fun j => hb _)
    (fun j => hg _) (fun j => hbe _) (preArr4 V c)
    (by rw [preArr4_eq]; simp only [e0, e1, e2, e3, e4, e5, kAgg128_eq, kRow128_apply])
    ((dat4 (F := Ideal) V c).arrAt 7 cfg4.N) ((dat4 (F := Ideal) V c).arrAt 8 cfg4.N) (val4_7 V c) (val4_8 V c) _ _
    (fun p q => by rw [val5]; simp only [f0, f1, f2, f3, f4, kRow128_apply, val4_6])
    (fun p q => by rw [refBnRelu_apply]; simp only [refPre128_apply])

end Cert.KernelIdeal.Hand

end
-- ==== Proof.Ideal.Val6.lean ====
import proofs.«176666_j61426622267897_1_alg».proof.Proof.Ideal.Mlp6
import proofs.«176666_j61426622267897_1_alg».proof.Proof.Spec.Layers
import proofs.«176666_j61426622267897_1_alg».proof.Proof.Spec.Consts
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx

theorem mm6_apply {M K N : ℕ} (a : FVec Ideal ⟨2, ![M, K]⟩ .f32) (b : FVec Ideal ⟨2, ![K, N]⟩ .f32) (r : Fin M) (j : Fin N) :
    matmul (F := Ideal) (DotDims.plain M K N) none a b (constant (F := Ideal) ⟨2, ![M, N]⟩ .f32 0x00000000#32) (ix2 r j)
      = ∑ k : Fin K, a (ix2 r k) * b (ix2 k j) := by
  refine (Ideal.matmul_constant_zero_apply (DotDims.plain M K N) none a b (ix2 r j)).trans ?_
  rw [← Equiv.sum_comp (contrEquiv1 (DotDims.plain M K N) K rfl rfl).symm]
  refine Finset.sum_congr rfl fun k _ => ?_
  have hk := contrEquiv1_symm_val (DotDims.plain M K N) K rfl rfl k
  exact congrArg₂ (· * ·) (congrArg a (Shape.idx_ext₂ rfl hk)) (congrArg b (Shape.idx_ext₂ hk rfl))

theorem lift_row (h : S5000x40.Reduces [1] S5000) (r : Fin 5000) (k : Fin 40) : h.lift (ix1 r) k = ix2 r k :=
  funext fun ax => Fin.ext (by
    match ax with
    | ⟨0, _⟩ => rfl
    | ⟨1, _⟩ => rfl)

theorem rowmax_apply (z : FVec Ideal S5000x40 .f32) (h : S5000x40.Reduces [1] S5000) (hφ : FKind.Formats .f32)
    (hacc : (0xFF800000#32 : BitVec 32) = 0xFF800000#32) (r : Fin 5000) :
    multiReduction (F := Ideal) .maximumf [1] S5000 z 0xFF800000#32 h hφ hacc (ix1 r)
      = (Finset.univ : Finset (Fin 40)).fold max ⊥ fun k => z (ix2 r k) := by
  refine (Ideal.multiReduction_maximumf_single z 0xFF800000#32 h hφ hacc (ix1 r)).trans ?_
  show (Finset.univ : Finset (Fin 40)).fold max (Ideal.ofBits .f32 0xFF800000#32) (z ∘ h.lift (ix1 r)) = _
  rw [Cert.Spec.ofBits_neg_inf]
  exact congrArg (fun f => (Finset.univ : Finset (Fin 40)).fold max ⊥ f) (funext fun k => congrArg z (lift_row h r k))

theorem rowsum_apply (z : FVec Ideal S5000x40 .f32) (h : S5000x40.Reduces [1] S5000) (hφ : FKind.Formats .f32)
    (hacc : (0x00000000#32 : BitVec 32) = 0x00000000#32) (r : Fin 5000) :
    multiReduction (F := Ideal) .add [1] S5000 z 0x00000000#32 h hφ hacc (ix1 r) = ∑ k : Fin 40, z (ix2 r k) := by
  refine (Ideal.multiReduction_add_single z 0x00000000#32 h hφ hacc (ix1 r)).trans ?_
  exact Finset.sum_congr rfl fun k _ => congrArg z (lift_row h r k)

theorem colCast_apply {α : Type} (u : S5000.Idx → α) (h : S5000.ShapeCasts S5000x1) (r : Fin 5000) (o : Fin 1) :
    shapeCast S5000x1 u h (ix2 r o) = u (ix1 r) :=
  shapeCast_apply u h _ _ (by
    have ho : o.val = 0 := by omega
    rw [Shape.rowMajor_val_two, Shape.rowMajor_val_one]
    show r.val = r.val * 1 + o.val
    rw [ho, Nat.mul_one, Nat.add_zero])

theorem colBroadcast_apply {α : Type} (w : S5000x1.Idx → α) (h : S5000x1.Broadcasts S5000x40) (r : Fin 5000) (q : Fin 40) :
    broadcastTo S5000x40 w h (ix2 r q) = w (ix2 r (0 : Fin 1)) := by
  refine broadcastTo_apply w h (ix2 r q) (ix2 r (0 : Fin 1)) fun ax => ?_
  match ax with
  | ⟨0, _⟩ => rfl
  | ⟨1, _⟩ => rfl

def aff1 (x0 : FVec Ideal S5000x128 .f32) (x1 : FVec Ideal S128x128 .f32) (x2 : FVec Ideal S1x128 .f32) : FVec Ideal S5000x128 .f32 :=
  addf (matmul (F := Ideal) dot_S5000x128_S128x128_S5000x128_1_0_0_1_n_n none (shapeCast S5000x128 x0 shapeCasts_S5000x128_S5000x128) x1
      (constant (F := Ideal) S5000x128 .f32 0x00000000#32))
    (broadcastTo S5000x128 (shapeCast S1x128 x2 shapeCasts_S1x128_S1x128) broadcasts_S1x128_S5000x128)

def aff2 (y : FVec Ideal S5000x128 .f32) (x3 : FVec Ideal S128x40 .f32) (x4 : FVec Ideal S1x40 .f32) : FVec Ideal S5000x40 .f32 :=
  addf (matmul (F := Ideal) dot_S5000x128_S128x40_S5000x40_1_0_0_1_n_n none y x3 (constant (F := Ideal) S5000x40 .f32 0x00000000#32))
    (broadcastTo S5000x40 (shapeCast S1x40 x4 shapeCasts_S1x40_S1x40) broadcasts_S1x40_S5000x40)

def rmaxB (z : FVec Ideal S5000x40 .f32) : FVec Ideal S5000x40 .f32 :=
  broadcastTo S5000x40 (shapeCast S5000x1
    (maximumf (broadcast S5000 (Scalar.ofBits (F := Ideal) .f32 0xFF800000#32))
      (multiReduction (F := Ideal) .maximumf [1] S5000 z 0xFF800000#32 reduces_S5000x40_S5000 (.inl rfl) rfl))
    shapeCasts_S5000_S5000x1) broadcasts_S5000x1_S5000x40

def lsumB (e : FVec Ideal S5000x40 .f32) : FVec Ideal S5000x40 .f32 :=
  broadcastTo S5000x40 (log (shapeCast S5000x1
    (multiReduction (F := Ideal) .add [1] S5000 e 0x00000000#32 reduces_S5000x40_S5000 (.inl rfl) rfl) shapeCasts_S5000_S5000x1))
    broadcasts_S5000x1_S5000x40

theorem aff1_apply (x0 : FVec Ideal S5000x128 .f32) (x1 : FVec Ideal S128x128 .f32) (x2 : FVec Ideal S1x128 .f32) (r : Fin 5000) (j : Fin 128) :
    aff1 x0 x1 x2 (ix2 r j) = (∑ k : Fin 128, x0 (ix2 r k) * x1 (ix2 k j)) + x2 (ix2 (0 : Fin 1) j) :=
  congrArg₂ (· + ·) ((mm6_apply ..).trans (by rw [shapeCast_self])) ((broadcastTo_1b_ab_apply ..).trans (by rw [shapeCast_self]))

theorem aff2_apply (y : FVec Ideal S5000x128 .f32) (x3 : FVec Ideal S128x40 .f32) (x4 : FVec Ideal S1x40 .f32) (r : Fin 5000) (q : Fin 40) :
    aff2 y x3 x4 (ix2 r q) = (∑ k : Fin 128, y (ix2 r k) * x3 (ix2 k q)) + x4 (ix2 (0 : Fin 1) q) :=
  congrArg₂ (· + ·) (mm6_apply ..) ((broadcastTo_1b_ab_apply ..).trans (by rw [shapeCast_self]))

theorem rmaxB_apply (z : FVec Ideal S5000x40 .f32) (r : Fin 5000) (q : Fin 40) :
    rmaxB z (ix2 r q) = Cert.Spec.rowMax (fun i j => z (ix2 i j)) r := by
  unfold rmaxB
  rw [colBroadcast_apply, colCast_apply]
  show max (Ideal.ofBits .f32 0xFF800000#32)
    (multiReduction (F := Ideal) .maximumf [1] S5000 z 0xFF800000#32 reduces_S5000x40_S5000 (.inl rfl) rfl (ix1 r)) = _
  rw [rowmax_apply, Cert.Spec.ofBits_neg_inf]
  rfl

theorem lsumB_apply (e : FVec Ideal S5000x40 .f32) (r : Fin 5000) (q : Fin 40) :
    lsumB e (ix2 r q) = Ideal.log (∑ k : Fin 40, e (ix2 r k)) := by
  unfold lsumB
  rw [colBroadcast_apply]
  show Ideal.log (shapeCast S5000x1
    (multiReduction (F := Ideal) .add [1] S5000 e 0x00000000#32 reduces_S5000x40_S5000 (.inl rfl) rfl) shapeCasts_S5000_S5000x1 (ix2 r (0 : Fin 1))) = _
  rw [colCast_apply, rowsum_apply]

theorem pay6_apply (x0 : Vec Ideal S5000x128 .f32) (x1 : Vec Ideal S128x128 .f32) (x2 : Vec Ideal S1x128 .f32)
    (x3 : Vec Ideal S128x40 .f32) (x4 : Vec Ideal S1x40 .f32) (r : Fin 5000) (q : Fin 40) :
    k6_pay1 (F := Ideal) x0 x1 x2 x3 x4 (ix2 r q)
      = Cert.Spec.logSoftmax (Cert.Spec.lin (Cert.Spec.lin (fun i k => x0 (ix2 i k)) (fun k j => x1 (ix2 k j)) (fun j => x2 (ix2 (0 : Fin 1) j)))
          (fun k j => x3 (ix2 k j)) (fun j => x4 (ix2 (0 : Fin 1) j))) r q := by
  show (aff2 (aff1 x0 x1 x2) x3 x4 (ix2 r q) - rmaxB (aff2 (aff1 x0 x1 x2) x3 x4) (ix2 r q))
      - lsumB (exp (subf (aff2 (aff1 x0 x1 x2) x3 x4) (rmaxB (aff2 (aff1 x0 x1 x2) x3 x4)))) (ix2 r q) = _
  rw [lsumB_apply, rmaxB_apply]
  have hz : (fun (i : Fin 5000) (j : Fin 40) => aff2 (aff1 x0 x1 x2) x3 x4 (ix2 i j))
      = Cert.Spec.lin (Cert.Spec.lin (fun i k => x0 (ix2 i k)) (fun k j => x1 (ix2 k j)) (fun j => x2 (ix2 (0 : Fin 1) j)))
          (fun k j => x3 (ix2 k j)) (fun j => x4 (ix2 (0 : Fin 1) j)) := by
    funext i j
    rw [aff2_apply]
    unfold Cert.Spec.lin
    simp only [aff1_apply]
  have he : ∀ k : Fin 40, exp (subf (aff2 (aff1 x0 x1 x2) x3 x4) (rmaxB (aff2 (aff1 x0 x1 x2) x3 x4))) (ix2 r k)
      = Ideal.exp (aff2 (aff1 x0 x1 x2) x3 x4 (ix2 r k) - Cert.Spec.rowMax (fun i j => aff2 (aff1 x0 x1 x2) x3 x4 (ix2 i j)) r) := fun k => by
    show Ideal.exp (aff2 (aff1 x0 x1 x2) x3 x4 (ix2 r k) - rmaxB (aff2 (aff1 x0 x1 x2) x3 x4) (ix2 r k)) = _
    rw [rmaxB_apply]
  simp only [he]
  rw [← hz]
  rfl

theorem head_row {n n' : ℕ} (h : Fin n → Fin 128 → EReal) (h' : Fin n' → Fin 128 → EReal)
    (W1 : Fin 128 → Fin 128 → EReal) (b1 : Fin 128 → EReal) (W2 : Fin 128 → Fin 40 → EReal) (b2 : Fin 40 → EReal)
    (r : Fin n) (p : Fin n') (hrow : ∀ k, h r k = h' p k) (q : Fin 40) :
    Cert.Spec.logSoftmax (Cert.Spec.lin (Cert.Spec.lin h W1 b1) W2 b2) r q
      = Cert.Spec.logSoftmax (Cert.Spec.lin (Cert.Spec.lin h' W1 b1) W2 b2) p q := by
  unfold Cert.Spec.logSoftmax Cert.Spec.rowMax Cert.Spec.lin
  simp only [hrow]

section Value

variable (V : (c : Dev nD) → (b : Ref sig .tc) → Buf (Elt Ideal) ((c : Thread nD τ).loc b)) (c : Dev nD) (t : Fin cfg6.N)

abbrev harr6 : FVec Ideal S100000x128 .f32 := V c (Pipeline.arrRef spec6 0)
abbrev w1arr6 : FVec Ideal S128x128 .f32 := V c (Pipeline.arrRef spec6 1)
abbrev b1arr6 : FVec Ideal S1x128 .f32 := V c (Pipeline.arrRef spec6 2)
abbrev w2arr6 : FVec Ideal S128x40 .f32 := V c (Pipeline.arrRef spec6 3)
abbrev b2arr6 : FVec Ideal S1x40 .f32 := V c (Pipeline.arrRef spec6 4)

def G6 : FVec Ideal S100000x40 .f32 := fun i =>
  Cert.Spec.logSoftmax (Cert.Spec.lin (Cert.Spec.lin (fun p k => harr6 V c (ix2 p k)) (fun k j => w1arr6 V c (ix2 k j))
      (fun j => b1arr6 V c (ix2 (0 : Fin 1) j))) (fun k j => w2arr6 V c (ix2 k j)) (fun j => b2arr6 V c (ix2 (0 : Fin 1) j))) (i 0) (i 1)

theorem zeros2 : (![0, 0] : Fin 2 → Nat) = fun _ => 0 := funext fun a => by fin_cases a <;> rfl

theorem zoff6 {ix : Fin 2 → Nat} (h : ix = ![0, 0]) (sz : Fin 2 → Nat) : (fun a => ix a * sz a) = fun _ => 0 := by
  subst h; funext a; fin_cases a <;> exact Nat.zero_mul _

theorem idx6 : ∀ t : Fin cfg6.N, win6_0.index t 0 = t.val ∧ win6_5.index t 0 = t.val :=
  (by decide +kernel : ∀ t : Fin grid6.N, _)

theorem lt6 : t.val < 20 := lt_of_lt_of_eq (b := grid6.N) t.isLt N_6

def row6 (r : Fin 5000) : Fin 100000 := ⟨5000 * t.val + r.val, by have := lt6 t; have := r.isLt; omega⟩

theorem emb_row6 {m : Nat} {off : Fin 2 → Nat} {inb}
    (h0 : off 0 = t.val * 5000) (h1 : off 1 = 0) (r : Fin 5000) (k : Fin m) :
    (Rect.unit (s := ⟨2, ![100000, m]⟩) off ![5000, m] inb).emb (ix2 r k) = ix2 (row6 t r) k :=
  Shape.idx_ext₂ (by show off 0 + 1 * r.val = 5000 * t.val + r.val; omega) (by show off 1 + 1 * k.val = k.val; omega)

theorem whole6 : iblk6 V c 1 t = w1arr6 V c ∧ iblk6 V c 2 t = b1arr6 V c ∧ iblk6 V c 3 t = w2arr6 V c ∧ iblk6 V c 4 t = b2arr6 V c :=
  ⟨Memref.read_access_unit_zero _ _ (zoff6 rfl _) _ _, Memref.read_access_unit_zero _ _ (zoff6 rfl _) _ _,
    Memref.read_access_unit_zero _ _ (zoff6 rfl _) _ _, Memref.read_access_unit_zero _ _ (zoff6 rfl _) _ _⟩

theorem flushed6_eq : (dat6 (F := Ideal) V c).flushed 5 t = ((cfg6.win 5).blk t).view.read (Elt Ideal) (G6 V c) := by
  show (cfg6.win 5).cut (grid6.coords t) ((dat6 (F := Ideal) V c).after 5 t) = _
  rw [after6_5]
  unfold out6_5
  rw [View.canon_unit_zero zeros2]
  simp only [View.ld_unit_zero (S := S5000x128) zeros2, View.ld_unit_zero (S := S128x128) zeros2, View.ld_unit_zero (S := S1x128) zeros2,
    View.ld_unit_zero (S := S128x40) zeros2, View.ld_unit_zero (S := S1x40) zeros2]
  funext y
  obtain ⟨r, q, rfl⟩ : ∃ (r : Fin 5000) (q : Fin 40), y = ix2 r q := ⟨y 0, y 1, eq_ix2 y⟩
  obtain ⟨w1, w2, w3, w4⟩ := whole6 V c t
  rw [w1, w2, w3, w4]
  refine (pay6_apply ..).trans ((head_row _ (fun p k => harr6 V c (ix2 p k)) _ _ _ _ r (row6 t r) (fun k => ?_) q).trans ?_)
  · exact congrArg (harr6 V c) (emb_row6 t (congrArg (· * 5000) (idx6 t).1) rfl r k)
  · exact (congrArg (G6 V c) (emb_row6 t (congrArg (· * 5000) (idx6 t).2) rfl r q)).symm

theorem arr6_eq : (dat6 (F := Ideal) V c).arrAt 5 cfg6.N = G6 V c :=
  (dat6 (F := Ideal) V c).arrAt_eq_of_cover 5 (G6 V c) (fun t _ => flushed6_eq V c t) fun i => by
    have hi := (i 0).isLt
    have hi0 : (i 0).val < 100000 := hi
    let t : Fin cfg6.N := ⟨(i 0).val / 5000, by rw [show cfg6.N = 20 from N_6]; omega⟩
    have e : ((cfg6.win 5).blk t).view.emb (ix2 ⟨(i 0).val % 5000, Nat.mod_lt _ (by decide)⟩ (i 1)) = i :=
      (emb_row6 t (congrArg (· * 5000) (idx6 t).2) rfl _ _).trans
        (Shape.idx_ext₂ (by show 5000 * ((i 0).val / 5000) + (i 0).val % 5000 = (i 0).val; omega) rfl)
    exact ⟨t, flush6_5 t, e ▸ ((cfg6.win 5).blk t).view.emb_mem_set _⟩

end Value

end Cert.KernelIdeal.Hand

end
-- ==== Proof.Ideal.ChainHead.lean ====
import proofs.«176666_j61426622267897_1_alg».proof.Proof.Ideal.Val6
import proofs.«176666_j61426622267897_1_alg».proof.Proof.Ref.Read
import proofs.«176666_j61426622267897_1_alg».proof.Proof.Ideal.HostRead
import proofs.«176666_j61426622267897_1_alg».proof.Proof.Ref.Stages
import proofs.«176666_j61426622267897_1_alg».proof.Proof.Spec.Layers
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

set_option maxHeartbeats 1000000 in
-- Entry by entry both sides are the row log-softmax of the two affine maps of the node features.
theorem head_value (V : (c : Dev nD) → (b : Ref sig .tc) → Buf (Elt Ideal) ((c : Thread nD τ).loc b)) (c : Dev nD)
    (h : Arr Ideal S100000x128 .f32) (Wm1 : Arr Ideal S128x128 .f32) (bm1 : Arr Ideal S128 .f32)
    (Wm2 : Arr Ideal S128x40 .f32) (bm2 : Arr Ideal S40 .f32)
    (e0 : harr6 V c = h) (e1 : w1arr6 V c = Wm1) (e2 : b1arr6 V c = kRow128 (F := Ideal) bm1)
    (e3 : w2arr6 V c = Wm2) (e4 : b2arr6 V c = kRow40 (F := Ideal) bm2) :
    (dat6 (F := Ideal) V c).arrAt 5 cfg6.N = Cert.ReferenceIdeal.Hand.refHead (F := Ideal) h Wm1 bm1 Wm2 bm2 := by
  refine (arr6_eq V c).trans (funext fun i => ?_)
  obtain ⟨p, q, rfl⟩ : ∃ (p : Fin 100000) (q : Fin 40), i = ix2 p q := ⟨i 0, i 1, eq_ix2 i⟩
  rw [Cert.ReferenceIdeal.Hand.refHead_apply h Wm1 bm1 Wm2 bm2 p q]
  show Cert.Spec.logSoftmax (Cert.Spec.lin (Cert.Spec.lin (fun i k => harr6 V c (ix2 i k)) (fun k j => w1arr6 V c (ix2 k j))
          (fun j => b1arr6 V c (ix2 (0 : Fin 1) j))) (fun k j => w2arr6 V c (ix2 k j)) (fun j => b2arr6 V c (ix2 (0 : Fin 1) j))) p q = _
  have hb1 : (fun j : Fin 128 => b1arr6 V c (ix2 (0 : Fin 1) j)) = fun j => bm1 (ix1 j) :=
    funext fun j => by rw [e2, kRow128_apply]
  have hb2 : (fun j : Fin 40 => b2arr6 V c (ix2 (0 : Fin 1) j)) = fun j => bm2 (ix1 j) :=
    funext fun j => by rw [e4, kRow40_apply]
  rw [hb1, hb2, e0, e1, e3]

end Cert.KernelIdeal.Hand

end
-- ==== Proof.Ideal.Entries.lean ====
import proofs.«176666_j61426622267897_1_alg».proof.Proof.Ideal.Run
import proofs.«176666_j61426622267897_1_alg».proof.Proof.Ideal.HostStages
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Valuation τ sig (Elt F))

theorem host0_v1 :
    StableHlo.after hostOps0 W (Proc.devRef .tc main_v1) = kSrc (F := F) (W (Proc.devRef .tc main_arg1)) := by
  after_results_simp; rfl
theorem host0_v3 :
    StableHlo.after hostOps0 W (Proc.devRef .tc main_v3) = kDst (F := F) (W (Proc.devRef .tc main_arg1)) := by
  after_results_simp; rfl
theorem host0_v12 :
    StableHlo.after hostOps0 W (Proc.devRef .tc main_v12) = kDegInv (F := F) (W (Proc.devRef .tc main_arg1)) := by
  after_results_simp; rfl
theorem host0_v22 :
    StableHlo.after hostOps0 W (Proc.devRef .tc main_v22) = kAgg64 (F := F) (W (Proc.devRef .tc main_arg0)) (W (Proc.devRef .tc main_arg1)) := by
  after_results_simp; rfl
theorem host0_v23 :
    StableHlo.after hostOps0 W (Proc.devRef .tc main_v23) = kRow128 (F := F) (W (Proc.devRef .tc main_arg5)) := by
  after_results_simp; rfl
theorem host1_v26 :
    StableHlo.after hostOps1 W (Proc.devRef .tc main_v26) = kMean (F := F) (W (Proc.devRef .tc main_v24_1)) := by
  after_results_simp; rfl
theorem host1_v30 :
    StableHlo.after hostOps1 W (Proc.devRef .tc main_v30) = kVar (F := F) (W (Proc.devRef .tc main_v24_1)) (W (Proc.devRef .tc main_v24_2)) := by
  after_results_simp; rfl
theorem host1_v31 :
    StableHlo.after hostOps1 W (Proc.devRef .tc main_v31) = kRow128 (F := F) (W (Proc.devRef .tc main_arg12)) := by
  after_results_simp; rfl
theorem host1_v32 :
    StableHlo.after hostOps1 W (Proc.devRef .tc main_v32) = kRow128 (F := F) (W (Proc.devRef .tc main_arg13)) := by
  after_results_simp; rfl
theorem host2_v43 :
    StableHlo.after hostOps2 W (Proc.devRef .tc main_v43) = kAggS128 (F := F) (W (Proc.devRef .tc main_v33)) (W (Proc.devRef .tc main_v1)) (W (Proc.devRef .tc main_v3)) := by
  after_results_simp; rfl
theorem host2_v44 :
    StableHlo.after hostOps2 W (Proc.devRef .tc main_v44) = kRow128 (F := F) (W (Proc.devRef .tc main_arg8)) := by
  after_results_simp; rfl
theorem host3_v47 :
    StableHlo.after hostOps3 W (Proc.devRef .tc main_v47) = kMean (F := F) (W (Proc.devRef .tc main_v45_1)) := by
  after_results_simp; rfl
theorem host3_v51 :
    StableHlo.after hostOps3 W (Proc.devRef .tc main_v51) = kVar (F := F) (W (Proc.devRef .tc main_v45_1)) (W (Proc.devRef .tc main_v45_2)) := by
  after_results_simp; rfl
theorem host3_v52 :
    StableHlo.after hostOps3 W (Proc.devRef .tc main_v52) = kRow128 (F := F) (W (Proc.devRef .tc main_arg14)) := by
  after_results_simp; rfl
theorem host3_v53 :
    StableHlo.after hostOps3 W (Proc.devRef .tc main_v53) = kRow128 (F := F) (W (Proc.devRef .tc main_arg15)) := by
  after_results_simp; rfl
theorem host4_v64 :
    StableHlo.after hostOps4 W (Proc.devRef .tc main_v64) = kAggS128 (F := F) (W (Proc.devRef .tc main_v54)) (W (Proc.devRef .tc main_v1)) (W (Proc.devRef .tc main_v3)) := by
  after_results_simp; rfl
theorem host4_v65 :
    StableHlo.after hostOps4 W (Proc.devRef .tc main_v65) = kRow128 (F := F) (W (Proc.devRef .tc main_arg11)) := by
  after_results_simp; rfl
theorem host5_v68 :
    StableHlo.after hostOps5 W (Proc.devRef .tc main_v68) = kMean (F := F) (W (Proc.devRef .tc main_v66_1)) := by
  after_results_simp; rfl
theorem host5_v72 :
    StableHlo.after hostOps5 W (Proc.devRef .tc main_v72) = kVar (F := F) (W (Proc.devRef .tc main_v66_1)) (W (Proc.devRef .tc main_v66_2)) := by
  after_results_simp; rfl
theorem host5_v73 :
    StableHlo.after hostOps5 W (Proc.devRef .tc main_v73) = kRow128 (F := F) (W (Proc.devRef .tc main_arg16)) := by
  after_results_simp; rfl
theorem host5_v74 :
    StableHlo.after hostOps5 W (Proc.devRef .tc main_v74) = kRow128 (F := F) (W (Proc.devRef .tc main_arg17)) := by
  after_results_simp; rfl
theorem host6_v76 :
    StableHlo.after hostOps6 W (Proc.devRef .tc main_v76) = kRow128 (F := F) (W (Proc.devRef .tc main_arg19)) := by
  after_results_simp; rfl
theorem host6_v77 :
    StableHlo.after hostOps6 W (Proc.devRef .tc main_v77) = kRow40 (F := F) (W (Proc.devRef .tc main_arg21)) := by
  after_results_simp; rfl

-- A buffer that a region's output windows and the stretch before it do not write holds after both what it held before.
theorem keep_of {n : ℕ} {A B C : Valuation τ sig (Elt F)} {arr : Fin n → Ref sig .tc} {o : Fin n → Bool} {p : Ref sig .tc → Prop}
    (hne : ∀ b, (∀ w, arr w ≠ b) → A (Proc.devRef .tc b) = B (Proc.devRef .tc b))
    (hin : ∀ w, o w = false → A (Proc.devRef .tc (arr w)) = B (Proc.devRef .tc (arr w)))
    (hof : ∀ b, p b → B (Proc.devRef .tc b) = C (Proc.devRef .tc b))
    {r : Ref sig .tc} (h : p r ∧ ∀ w, arr w = r → o w = false) {x} (e : C (Proc.devRef .tc r) = x) :
    A (Proc.devRef .tc r) = x := by
  refine (?_ : _ = B (Proc.devRef .tc r)).trans ((hof r h.1).trans e)
  by_cases k : ∃ w, arr w = r
  · obtain ⟨w, rfl⟩ := k; exact hin w (h.2 w rfl)
  · exact hne r fun w hw => k ⟨w, hw⟩

variable (m : (ℓ : Loc nD τ sig) → Buf (Elt F) ℓ) (ρ : Dev nD → PrngReg) (c : Dev nD)

abbrev K2 (r : Ref sig .tc) : Prop := True ∧ ∀ w, Pipeline.arrRef spec0 w = r → (cfg0.win w).isOut = false
abbrev K4 (r : Ref sig .tc) : Prop :=
  (r ∉ hostOps1_W ∧ ∀ w, Pipeline.arrRef spec1 w = r → (cfg1.win w).isOut = false) ∧ K2 r
abbrev K6 (r : Ref sig .tc) : Prop :=
  (r ∉ hostOps2_W ∧ ∀ w, Pipeline.arrRef spec2 w = r → (cfg2.win w).isOut = false) ∧ K4 r
abbrev K8 (r : Ref sig .tc) : Prop :=
  (r ∉ hostOps3_W ∧ ∀ w, Pipeline.arrRef spec3 w = r → (cfg3.win w).isOut = false) ∧ K6 r
abbrev K10 (r : Ref sig .tc) : Prop :=
  (r ∉ hostOps4_W ∧ ∀ w, Pipeline.arrRef spec4 w = r → (cfg4.win w).isOut = false) ∧ K8 r
abbrev K12 (r : Ref sig .tc) : Prop :=
  (r ∉ hostOps5_W ∧ ∀ w, Pipeline.arrRef spec5 w = r → (cfg5.win w).isOut = false) ∧ K10 r

variable {r : Ref sig .tc} {x : (Proc.devRef .tc r : DevRef τ sig).ty.Contents (Elt F)}

theorem keep2 (h : K2 r) (e : W1 m ρ c (Proc.devRef .tc r) = x) : W2 m ρ c (Proc.devRef .tc r) = x :=
  keep_of (p := fun _ => True) (W2_of_ne m ρ c) (W2_in m ρ c) (fun _ _ => rfl) h e
theorem keep4 (h : K4 r) (e : W1 m ρ c (Proc.devRef .tc r) = x) : W4 m ρ c (Proc.devRef .tc r) = x :=
  keep_of (W4_of_ne m ρ c) (W4_in m ρ c) (W3_of m ρ c) h.1 (keep2 m ρ c h.2 e)
theorem keep6 (h : K6 r) (e : W1 m ρ c (Proc.devRef .tc r) = x) : W6 m ρ c (Proc.devRef .tc r) = x :=
  keep_of (W6_of_ne m ρ c) (W6_in m ρ c) (W5_of m ρ c) h.1 (keep4 m ρ c h.2 e)
theorem keep8 (h : K8 r) (e : W1 m ρ c (Proc.devRef .tc r) = x) : W8 m ρ c (Proc.devRef .tc r) = x :=
  keep_of (W8_of_ne m ρ c) (W8_in m ρ c) (W7_of m ρ c) h.1 (keep6 m ρ c h.2 e)
theorem keep10 (h : K10 r) (e : W1 m ρ c (Proc.devRef .tc r) = x) : W10 m ρ c (Proc.devRef .tc r) = x :=
  keep_of (W10_of_ne m ρ c) (W10_in m ρ c) (W9_of m ρ c) h.1 (keep8 m ρ c h.2 e)
theorem keep12 (h : K12 r) (e : W1 m ρ c (Proc.devRef .tc r) = x) : W12 m ρ c (Proc.devRef .tc r) = x :=
  keep_of (W12_of_ne m ρ c) (W12_in m ρ c) (W11_of m ρ c) h.1 (keep10 m ρ c h.2 e)

theorem entry0_0 : V1 m ρ c (Pipeline.arrRef spec0 0) = kAgg64 (F := F) (m ((c : Thread nD τ).loc main_arg0)) (m ((c : Thread nD τ).loc main_arg1)) :=
  host0_v22 _
theorem entry0_1 : V1 m ρ c (Pipeline.arrRef spec0 1) = m ((c : Thread nD τ).loc main_arg0) :=
  W1_of m ρ c _ (by decide)
theorem entry0_2 : V1 m ρ c (Pipeline.arrRef spec0 2) = kDegInv (F := F) (m ((c : Thread nD τ).loc main_arg1)) :=
  host0_v12 _
theorem entry0_3 : V1 m ρ c (Pipeline.arrRef spec0 3) = m ((c : Thread nD τ).loc main_arg3) :=
  W1_of m ρ c _ (by decide)
theorem entry0_4 : V1 m ρ c (Pipeline.arrRef spec0 4) = m ((c : Thread nD τ).loc main_arg4) :=
  W1_of m ρ c _ (by decide)
theorem entry0_5 : V1 m ρ c (Pipeline.arrRef spec0 5) = kRow128 (F := F) (m ((c : Thread nD τ).loc main_arg5)) :=
  host0_v23 _
theorem entry1_0 : V3 m ρ c (Pipeline.arrRef spec1 0) = (dat0 (V1 m ρ) c).arrAt 6 cfg0.N :=
  (W3_of m ρ c _ (by decide)).trans (W2_arr m ρ c 6)
theorem entry1_1 : V3 m ρ c (Pipeline.arrRef spec1 1) = kMean (F := F) ((dat0 (V1 m ρ) c).arrAt 7 cfg0.N) :=
  (host1_v26 _).trans (congrArg kMean (W2_arr m ρ c 7))
theorem entry1_2 : V3 m ρ c (Pipeline.arrRef spec1 2) = kVar (F := F) ((dat0 (V1 m ρ) c).arrAt 7 cfg0.N) ((dat0 (V1 m ρ) c).arrAt 8 cfg0.N) :=
  (host1_v30 _).trans (congrArg₂ kVar (W2_arr m ρ c 7) (W2_arr m ρ c 8))
theorem entry1_3 : V3 m ρ c (Pipeline.arrRef spec1 3) = kRow128 (F := F) (m ((c : Thread nD τ).loc main_arg12)) :=
  (host1_v31 _).trans (congrArg kRow128 (keep2 m ρ c (by decide) (W1_of m ρ c _ (by decide))))
theorem entry1_4 : V3 m ρ c (Pipeline.arrRef spec1 4) = kRow128 (F := F) (m ((c : Thread nD τ).loc main_arg13)) :=
  (host1_v32 _).trans (congrArg kRow128 (keep2 m ρ c (by decide) (W1_of m ρ c _ (by decide))))
theorem entry2_0 : V5 m ρ c (Pipeline.arrRef spec2 0) = kAgg128 (F := F) ((dat1 (V3 m ρ) c).arrAt 5 cfg1.N) (m ((c : Thread nD τ).loc main_arg1)) :=
  (host2_v43 _).trans (by
    rw [W4_arr m ρ c 5, keep4 m ρ c (by decide) (host0_v1 _), keep4 m ρ c (by decide) (host0_v3 _)]; rfl)
theorem entry2_1 : V5 m ρ c (Pipeline.arrRef spec2 1) = (dat1 (V3 m ρ) c).arrAt 5 cfg1.N :=
  (W5_of m ρ c _ (by decide)).trans (W4_arr m ρ c 5)
theorem entry2_2 : V5 m ρ c (Pipeline.arrRef spec2 2) = kDegInv (F := F) (m ((c : Thread nD τ).loc main_arg1)) :=
  (W5_of m ρ c _ (by decide)).trans (keep4 m ρ c (by decide) (host0_v12 _))
theorem entry2_3 : V5 m ρ c (Pipeline.arrRef spec2 3) = m ((c : Thread nD τ).loc main_arg6) :=
  (W5_of m ρ c _ (by decide)).trans (keep4 m ρ c (by decide) (W1_of m ρ c _ (by decide)))
theorem entry2_4 : V5 m ρ c (Pipeline.arrRef spec2 4) = m ((c : Thread nD τ).loc main_arg7) :=
  (W5_of m ρ c _ (by decide)).trans (keep4 m ρ c (by decide) (W1_of m ρ c _ (by decide)))
theorem entry2_5 : V5 m ρ c (Pipeline.arrRef spec2 5) = kRow128 (F := F) (m ((c : Thread nD τ).loc main_arg8)) :=
  (host2_v44 _).trans (congrArg kRow128 (keep4 m ρ c (by decide) (W1_of m ρ c _ (by decide))))
theorem entry3_0 : V7 m ρ c (Pipeline.arrRef spec3 0) = (dat2 (V5 m ρ) c).arrAt 6 cfg2.N :=
  (W7_of m ρ c _ (by decide)).trans (W6_arr m ρ c 6)
theorem entry3_1 : V7 m ρ c (Pipeline.arrRef spec3 1) = kMean (F := F) ((dat2 (V5 m ρ) c).arrAt 7 cfg2.N) :=
  (host3_v47 _).trans (congrArg kMean (W6_arr m ρ c 7))
theorem entry3_2 : V7 m ρ c (Pipeline.arrRef spec3 2) = kVar (F := F) ((dat2 (V5 m ρ) c).arrAt 7 cfg2.N) ((dat2 (V5 m ρ) c).arrAt 8 cfg2.N) :=
  (host3_v51 _).trans (congrArg₂ kVar (W6_arr m ρ c 7) (W6_arr m ρ c 8))
theorem entry3_3 : V7 m ρ c (Pipeline.arrRef spec3 3) = kRow128 (F := F) (m ((c : Thread nD τ).loc main_arg14)) :=
  (host3_v52 _).trans (congrArg kRow128 (keep6 m ρ c (by decide) (W1_of m ρ c _ (by decide))))
theorem entry3_4 : V7 m ρ c (Pipeline.arrRef spec3 4) = kRow128 (F := F) (m ((c : Thread nD τ).loc main_arg15)) :=
  (host3_v53 _).trans (congrArg kRow128 (keep6 m ρ c (by decide) (W1_of m ρ c _ (by decide))))
theorem entry4_0 : V9 m ρ c (Pipeline.arrRef spec4 0) = kAgg128 (F := F) ((dat3 (V7 m ρ) c).arrAt 5 cfg3.N) (m ((c : Thread nD τ).loc main_arg1)) :=
  (host4_v64 _).trans (by
    rw [W8_arr m ρ c 5, keep8 m ρ c (by decide) (host0_v1 _), keep8 m ρ c (by decide) (host0_v3 _)]; rfl)
theorem entry4_1 : V9 m ρ c (Pipeline.arrRef spec4 1) = (dat3 (V7 m ρ) c).arrAt 5 cfg3.N :=
  (W9_of m ρ c _ (by decide)).trans (W8_arr m ρ c 5)
theorem entry4_2 : V9 m ρ c (Pipeline.arrRef spec4 2) = kDegInv (F := F) (m ((c : Thread nD τ).loc main_arg1)) :=
  (W9_of m ρ c _ (by decide)).trans (keep8 m ρ c (by decide) (host0_v12 _))
theorem entry4_3 : V9 m ρ c (Pipeline.arrRef spec4 3) = m ((c : Thread nD τ).loc main_arg9) :=
  (W9_of m ρ c _ (by decide)).trans (keep8 m ρ c (by decide) (W1_of m ρ c _ (by decide)))
theorem entry4_4 : V9 m ρ c (Pipeline.arrRef spec4 4) = m ((c : Thread nD τ).loc main_arg10) :=
  (W9_of m ρ c _ (by decide)).trans (keep8 m ρ c (by decide) (W1_of m ρ c _ (by decide)))
theorem entry4_5 : V9 m ρ c (Pipeline.arrRef spec4 5) = kRow128 (F := F) (m ((c : Thread nD τ).loc main_arg11)) :=
  (host4_v65 _).trans (congrArg kRow128 (keep8 m ρ c (by decide) (W1_of m ρ c _ (by decide))))
theorem entry5_0 : V11 m ρ c (Pipeline.arrRef spec5 0) = (dat4 (V9 m ρ) c).arrAt 6 cfg4.N :=
  (W11_of m ρ c _ (by decide)).trans (W10_arr m ρ c 6)
theorem entry5_1 : V11 m ρ c (Pipeline.arrRef spec5 1) = kMean (F := F) ((dat4 (V9 m ρ) c).arrAt 7 cfg4.N) :=
  (host5_v68 _).trans (congrArg kMean (W10_arr m ρ c 7))
theorem entry5_2 : V11 m ρ c (Pipeline.arrRef spec5 2) = kVar (F := F) ((dat4 (V9 m ρ) c).arrAt 7 cfg4.N) ((dat4 (V9 m ρ) c).arrAt 8 cfg4.N) :=
  (host5_v72 _).trans (congrArg₂ kVar (W10_arr m ρ c 7) (W10_arr m ρ c 8))
theorem entry5_3 : V11 m ρ c (Pipeline.arrRef spec5 3) = kRow128 (F := F) (m ((c : Thread nD τ).loc main_arg16)) :=
  (host5_v73 _).trans (congrArg kRow128 (keep10 m ρ c (by decide) (W1_of m ρ c _ (by decide))))
theorem entry5_4 : V11 m ρ c (Pipeline.arrRef spec5 4) = kRow128 (F := F) (m ((c : Thread nD τ).loc main_arg17)) :=
  (host5_v74 _).trans (congrArg kRow128 (keep10 m ρ c (by decide) (W1_of m ρ c _ (by decide))))
theorem entry6_0 : V13 m ρ c (Pipeline.arrRef spec6 0) = (dat5 (V11 m ρ) c).arrAt 5 cfg5.N :=
  (W13_of m ρ c _ (by decide)).trans (W12_arr m ρ c 5)
theorem entry6_1 : V13 m ρ c (Pipeline.arrRef spec6 1) = m ((c : Thread nD τ).loc main_arg18) :=
  (W13_of m ρ c _ (by decide)).trans (keep12 m ρ c (by decide) (W1_of m ρ c _ (by decide)))
theorem entry6_2 : V13 m ρ c (Pipeline.arrRef spec6 2) = kRow128 (F := F) (m ((c : Thread nD τ).loc main_arg19)) :=
  (host6_v76 _).trans (congrArg kRow128 (keep12 m ρ c (by decide) (W1_of m ρ c _ (by decide))))
theorem entry6_3 : V13 m ρ c (Pipeline.arrRef spec6 3) = m ((c : Thread nD τ).loc main_arg20) :=
  (W13_of m ρ c _ (by decide)).trans (keep12 m ρ c (by decide) (W1_of m ρ c _ (by decide)))
theorem entry6_4 : V13 m ρ c (Pipeline.arrRef spec6 4) = kRow40 (F := F) (m ((c : Thread nD τ).loc main_arg21)) :=
  (host6_v77 _).trans (congrArg kRow40 (keep12 m ρ c (by decide) (W1_of m ρ c _ (by decide))))

end Cert.KernelIdeal.Hand

end
-- ==== Proof.Spec.Finite.lean ====
import proofs.«176666_j61426622267897_1_alg».proof.Pre_finite_inputs
import proofs.«176666_j61426622267897_1_alg».proof.Proof.Gen.Pre_finite_inputs
import proofs.«176666_j61426622267897_1_alg».proof.Proof.Spec.Algebra
import Idealize.ShloMosaic.Lib.ReduceAll
import Idealize.ShloMosaic.PureOps.Ideal

noncomputable section

namespace Cert.Spec.Finite

open Idealize.ShloMosaic Cert.Pre_finite_inputs Cert.Pre_finite_inputs.Facts

instance subsingleton_scalar_idx : Subsingleton S_.Idx := ⟨fun a b => funext fun d => d.elim0⟩

theorem inf_eq_top : Ideal.ofBits .f32 0x7F800000#32 = (⊤ : EReal) := by
  simp [Ideal.ofBits, Ideal.ieee]

theorem real_of_abs_lt_inf (x : EReal)
    (h : FloatOps.cmpf (F := Ideal) (φ := .f32) .olt (FloatOps.hostAbsf (F := Ideal) (φ := .f32) x)
          (FloatOps.ofBits (F := Ideal) .f32 0x7F800000#32) = 1#1) : ∃ r : ℝ, x = (r : EReal) := by
  change Ideal.cmp .olt (max x (-x)) (Ideal.ofBits .f32 0x7F800000#32) = 1#1 at h
  rw [inf_eq_top] at h
  unfold Ideal.cmp at h
  induction x using EReal.rec with
  | bot => simp at h
  | coe r => exact ⟨r, rfl⟩
  | top => simp at h

theorem isReal_of_all {s : Shape} {axes : List (Fin s.rank)} (x : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
          (cmpf .olt (Host.absf x) (broadcastInDim s ![] hb (constant (F := Ideal) S_ .f32 0x7F800000#32)))
          init hr hu j = 1#1) : Cert.Spec.IsReal x := fun i =>
  real_of_abs_lt_inf (x i) (Host.reduce_andi_all _ init hr hu j e i)

variable [Cert.Pre_finite_inputs.Facts]

theorem andi_apply (x y : IVec S_ 1) (j : S_.Idx) : andi x y j = IntOp.andi (x j) (y j) := rfl

theorem part5 (a19 : FVec Ideal S128 .f32) (a20 : FVec Ideal S128x40 .f32) (a21 : FVec Ideal S40 .f32)
    (v83 : IVec S_ 1) (j : S_.Idx)
    (h : fn_part5 (F := Ideal) a20 a21 v83 (Host.absf a19) (constant S_ .f32 0x7F800000#32) j = 1#1) :
    v83 j = 1#1 ∧ IsReal a19 ∧ IsReal a20 ∧ IsReal a21 := by
  unfold fn_part5 at h
  dsimp only at h
  rw [andi_apply, IntOp.andi_eq_one, andi_apply, IntOp.andi_eq_one, andi_apply, IntOp.andi_eq_one] at h
  obtain ⟨⟨⟨h83, h19⟩, h20⟩, h21⟩ := h
  exact ⟨h83, isReal_of_all _ _ _ _ _ j h19, isReal_of_all _ _ _ _ _ j h20, isReal_of_all _ _ _ _ _ j h21⟩

theorem part4 (a16 a17 : FVec Ideal S128 .f32) (a18 : FVec Ideal S128x128 .f32) (a19 : FVec Ideal S128 .f32)
    (a20 : FVec Ideal S128x40 .f32) (a21 : FVec Ideal S40 .f32) (v63 v67 : IVec S_ 1) (j : S_.Idx)
    (h : fn_part4 (F := Ideal) a16 a17 a18 a19 a20 a21 v63 v67 j = 1#1) :
    v63 j = 1#1 ∧ v67 j = 1#1 ∧ IsReal a16 ∧ IsReal a17 ∧ IsReal a18 ∧ IsReal a19 ∧ IsReal a20 ∧ IsReal a21 := by
  unfold fn_part4 at h
  dsimp only at h
  obtain ⟨h83, h19, h20, h21⟩ := part5 _ _ _ _ j h
  simp only [andi_apply, IntOp.andi_eq_one] at h83
  obtain ⟨⟨⟨⟨h63, h67⟩, h16⟩, h17⟩, h18⟩ := h83
  exact ⟨h63, h67, isReal_of_all _ _ _ _ _ j h16, isReal_of_all _ _ _ _ _ j h17, isReal_of_all _ _ _ _ _ j h18,
    h19, h20, h21⟩

theorem part3 (a12 a13 a14 a15 a16 a17 : FVec Ideal S128 .f32) (a18 : FVec Ideal S128x128 .f32)
    (a19 : FVec Ideal S128 .f32) (a20 : FVec Ideal S128x40 .f32) (a21 : FVec Ideal S40 .f32) (v48 : IVec S_ 1)
    (j : S_.Idx)
    (h : fn_part3 (F := Ideal) a13 a14 a15 a16 a17 a18 a19 a20 a21 v48 (Host.absf a12)
          (broadcastInDim S128 ![] bcast_S_S128 (constant S_ .f32 0x7F800000#32)) j = 1#1) :
    v48 j = 1#1 ∧ IsReal a12 ∧ IsReal a13 ∧ IsReal a14 ∧ IsReal a15 ∧ IsReal a16 ∧ IsReal a17 ∧ IsReal a18
      ∧ IsReal a19 ∧ IsReal a20 ∧ IsReal a21 := by
  unfold fn_part3 at h
  dsimp only at h
  obtain ⟨h63, h67, h16, h17, h18, h19, h20, h21⟩ := part4 _ _ _ _ _ _ _ _ j h
  simp only [andi_apply, IntOp.andi_eq_one] at h63
  obtain ⟨⟨⟨h48, h12⟩, h13⟩, h14⟩ := h63
  exact ⟨h48, isReal_of_all _ _ _ _ _ j h12, isReal_of_all _ _ _ _ _ j h13, isReal_of_all _ _ _ _ _ j h14,
    isReal_of_all _ _ _ _ _ j h67, h16, h17, h18, h19, h20, h21⟩

theorem part2 (a9 a10 : FVec Ideal S128x128 .f32) (a11 a12 a13 a14 a15 a16 a17 : FVec Ideal S128 .f32)
    (a18 : FVec Ideal S128x128 .f32) (a19 : FVec Ideal S128 .f32) (a20 : FVec Ideal S128x40 .f32)
    (a21 : FVec Ideal S40 .f32) (v33 : IVec S_ 1) (j : S_.Idx)
    (h : fn_part2 (F := Ideal) a9 a10 a11 a12 a13 a14 a15 a16 a17 a18 a19 a20 a21 v33 j = 1#1) :
    v33 j = 1#1 ∧ IsReal a9 ∧ IsReal a10 ∧ IsReal a11 ∧ IsReal a12 ∧ IsReal a13 ∧ IsReal a14 ∧ IsReal a15
      ∧ IsReal a16 ∧ IsReal a17 ∧ IsReal a18 ∧ IsReal a19 ∧ IsReal a20 ∧ IsReal a21 := by
  unfold fn_part2 at h
  dsimp only at h
  obtain ⟨h48, h12, h13, h14, h15, h16, h17, h18, h19, h20, h21⟩ := part3 _ _ _ _ _ _ _ _ _ _ _ j h
  simp only [andi_apply, IntOp.andi_eq_one] at h48
  obtain ⟨⟨⟨h33, h9⟩, h10⟩, h11⟩ := h48
  exact ⟨h33, isReal_of_all _ _ _ _ _ j h9, isReal_of_all _ _ _ _ _ j h10, isReal_of_all _ _ _ _ _ j h11,
    h12, h13, h14, h15, h16, h17, h18, h19, h20, h21⟩

theorem part1 (a5 : FVec Ideal S128 .f32) (a6 a7 : FVec Ideal S128x128 .f32) (a8 : FVec Ideal S128 .f32)
    (a9 a10 : FVec Ideal S128x128 .f32) (a11 a12 a13 a14 a15 a16 a17 : FVec Ideal S128 .f32)
    (a18 : FVec Ideal S128x128 .f32) (a19 : FVec Ideal S128 .f32) (a20 : FVec Ideal S128x40 .f32)
    (a21 : FVec Ideal S40 .f32) (v13 : IVec S_ 1) (j : S_.Idx)
    (h : fn_part1 (F := Ideal) a6 a7 a8 a9 a10 a11 a12 a13 a14 a15 a16 a17 a18 a19 a20 a21 v13
          (cmpf .olt (Host.absf a5) (broadcastInDim S128 ![] bcast_S_S128 (constant S_ .f32 0x7F800000#32))) j = 1#1) :
    v13 j = 1#1 ∧ IsReal a5 ∧ IsReal a6 ∧ IsReal a7 ∧ IsReal a8 ∧ IsReal a9 ∧ IsReal a10 ∧ IsReal a11
      ∧ IsReal a12 ∧ IsReal a13 ∧ IsReal a14 ∧ IsReal a15 ∧ IsReal a16 ∧ IsReal a17 ∧ IsReal a18 ∧ IsReal a19
      ∧ IsReal a20 ∧ IsReal a21 := by
  unfold fn_part1 at h
  dsimp only at h
  obtain ⟨h33, h9, h10, h11, h12, h13, h14, h15, h16, h17, h18, h19, h20, h21⟩ :=
    part2 _ _ _ _ _ _ _ _ _ _ _ _ _ _ j h
  simp only [andi_apply, IntOp.andi_eq_one] at h33
  obtain ⟨⟨⟨⟨hv13, h5⟩, h6⟩, h7⟩, h8⟩ := h33
  exact ⟨hv13, isReal_of_all _ _ _ _ _ j h5, isReal_of_all _ _ _ _ _ j h6, isReal_of_all _ _ _ _ _ j h7,
    isReal_of_all _ _ _ _ _ j h8, h9, h10, h11, h12, h13, h14, h15, h16, h17, h18, h19, h20, h21⟩

theorem real_of_pre (a0 : FVec Ideal S100000x64 .f32) (a1 : IVec S2x1600000 32) (a2 : IVec S100000 32)
    (a3 a4 : FVec Ideal S64x128 .f32) (a5 : FVec Ideal S128 .f32) (a6 a7 : FVec Ideal S128x128 .f32)
    (a8 : FVec Ideal S128 .f32) (a9 a10 : FVec Ideal S128x128 .f32)
    (a11 a12 a13 a14 a15 a16 a17 : FVec Ideal S128 .f32) (a18 : FVec Ideal S128x128 .f32)
    (a19 : FVec Ideal S128 .f32) (a20 : FVec Ideal S128x40 .f32) (a21 : FVec Ideal S40 .f32)
    (h : Cert.Pre_finite_inputs.fn (F := Ideal) a0 a1 a2 a3 a4 a5 a6 a7 a8 a9 a10 a11 a12 a13 a14 a15 a16 a17
          a18 a19 a20 a21 = fun _ => 1#1) :
    IsReal a0 ∧ IsReal a3 ∧ IsReal a4 ∧ IsReal a5 ∧ IsReal a6 ∧ IsReal a7 ∧ IsReal a8 ∧ IsReal a9 ∧ IsReal a10
      ∧ IsReal a11 ∧ IsReal a12 ∧ IsReal a13 ∧ IsReal a14 ∧ IsReal a15 ∧ IsReal a16 ∧ IsReal a17 ∧ IsReal a18
      ∧ IsReal a19 ∧ IsReal a20 ∧ IsReal a21 := by
  have h0 : Cert.Pre_finite_inputs.fn (F := Ideal) a0 a1 a2 a3 a4 a5 a6 a7 a8 a9 a10 a11 a12 a13 a14 a15 a16
      a17 a18 a19 a20 a21 (fun d => d.elim0) = 1#1 := congrFun h _
  unfold Cert.Pre_finite_inputs.fn at h0
  dsimp only at h0
  obtain ⟨h13, h5, h6, h7, h8, h9, h10, h11, h12, h13', h14, h15, h16, h17, h18, h19, h20, h21⟩ :=
    part1 _ _ _ _ _ _ _ _ _ _ _ _ _ _ _ _ _ _ _ h0
  simp only [andi_apply, IntOp.andi_eq_one] at h13
  obtain ⟨⟨hr0, hr3⟩, hr4⟩ := h13
  exact ⟨isReal_of_all _ _ _ _ _ _ hr0, isReal_of_all _ _ _ _ _ _ hr3, isReal_of_all _ _ _ _ _ _ hr4,
    h5, h6, h7, h8, h9, h10, h11, h12, h13', h14, h15, h16, h17, h18, h19, h20, h21⟩

end Cert.Spec.Finite

end
-- ==== Proof.Ideal.Chain.lean ====
import proofs.«176666_j61426622267897_1_alg».proof.Defs
import proofs.«176666_j61426622267897_1_alg».proof.Proof.Ideal.Chain1
import proofs.«176666_j61426622267897_1_alg».proof.Proof.Ideal.Chain2
import proofs.«176666_j61426622267897_1_alg».proof.Proof.Ideal.Chain3
import proofs.«176666_j61426622267897_1_alg».proof.Proof.Ideal.ChainHead
import proofs.«176666_j61426622267897_1_alg».proof.Proof.Ideal.Entries
import proofs.«176666_j61426622267897_1_alg».proof.Proof.Spec.Finite

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

section Args
variable (m : (ℓ : Loc nD τ sig) → Buf (Elt Ideal) ℓ) (c : Dev nD)
abbrev aX : Arr Ideal S100000x64 .f32 := m ((c.tc : Thread nD τ).loc main_arg0)
abbrev aEi : Arr Ideal S2x1600000 .i32 := m ((c.tc : Thread nD τ).loc main_arg1)
abbrev aWl1 : Arr Ideal S64x128 .f32 := m ((c.tc : Thread nD τ).loc main_arg3)
abbrev aWr1 : Arr Ideal S64x128 .f32 := m ((c.tc : Thread nD τ).loc main_arg4)
abbrev aB1 : Arr Ideal S128 .f32 := m ((c.tc : Thread nD τ).loc main_arg5)
abbrev aWl2 : Arr Ideal S128x128 .f32 := m ((c.tc : Thread nD τ).loc main_arg6)
abbrev aWr2 : Arr Ideal S128x128 .f32 := m ((c.tc : Thread nD τ).loc main_arg7)
abbrev aB2 : Arr Ideal S128 .f32 := m ((c.tc : Thread nD τ).loc main_arg8)
abbrev aWl3 : Arr Ideal S128x128 .f32 := m ((c.tc : Thread nD τ).loc main_arg9)
abbrev aWr3 : Arr Ideal S128x128 .f32 := m ((c.tc : Thread nD τ).loc main_arg10)
abbrev aB3 : Arr Ideal S128 .f32 := m ((c.tc : Thread nD τ).loc main_arg11)
abbrev aG1 : Arr Ideal S128 .f32 := m ((c.tc : Thread nD τ).loc main_arg12)
abbrev aBe1 : Arr Ideal S128 .f32 := m ((c.tc : Thread nD τ).loc main_arg13)
abbrev aG2 : Arr Ideal S128 .f32 := m ((c.tc : Thread nD τ).loc main_arg14)
abbrev aBe2 : Arr Ideal S128 .f32 := m ((c.tc : Thread nD τ).loc main_arg15)
abbrev aG3 : Arr Ideal S128 .f32 := m ((c.tc : Thread nD τ).loc main_arg16)
abbrev aBe3 : Arr Ideal S128 .f32 := m ((c.tc : Thread nD τ).loc main_arg17)
abbrev aWm1 : Arr Ideal S128x128 .f32 := m ((c.tc : Thread nD τ).loc main_arg18)
abbrev aBm1 : Arr Ideal S128 .f32 := m ((c.tc : Thread nD τ).loc main_arg19)
abbrev aWm2 : Arr Ideal S128x40 .f32 := m ((c.tc : Thread nD τ).loc main_arg20)
abbrev aBm2 : Arr Ideal S40 .f32 := m ((c.tc : Thread nD τ).loc main_arg21)

end Args

section Value
open Cert.ReferenceIdeal.Hand (refPre64 refPre128 refBnRelu refHead)
open Cert.Spec

variable (m : (ℓ : Loc nD τ sig) → Buf (Elt Ideal) ℓ) (ρ : Dev nD → PrngReg)

abbrev refH1 (c : Dev nD) : Arr Ideal S100000x128 .f32 :=
  refBnRelu (F := Ideal) (refPre64 (F := Ideal) (aX m c) (aEi m c) (aWl1 m c) (aWr1 m c) (aB1 m c)) (aG1 m c) (aBe1 m c)
abbrev refH2 (c : Dev nD) : Arr Ideal S100000x128 .f32 :=
  refBnRelu (F := Ideal) (refPre128 (F := Ideal) (refH1 m c) (aEi m c) (aWl2 m c) (aWr2 m c) (aB2 m c)) (aG2 m c) (aBe2 m c)
abbrev refH3 (c : Dev nD) : Arr Ideal S100000x128 .f32 :=
  refBnRelu (F := Ideal) (refPre128 (F := Ideal) (refH2 m c) (aEi m c) (aWl3 m c) (aWr3 m c) (aB3 m c)) (aG3 m c) (aBe3 m c)

set_option maxHeartbeats 1000000 in
theorem kernel_value (hPre : Cert.Pre_KernelIdeal m) (c : Dev nD) :
    (dat6 (F := Ideal) (V13 m ρ) c).arrAt 5 cfg6.N
      = refHead (F := Ideal)
          (refBnRelu (F := Ideal) (refPre128 (F := Ideal)
            (refBnRelu (F := Ideal) (refPre128 (F := Ideal)
              (refBnRelu (F := Ideal) (refPre64 (F := Ideal) (aX m c) (aEi m c) (aWl1 m c) (aWr1 m c) (aB1 m c)) (aG1 m c) (aBe1 m c))
              (aEi m c) (aWl2 m c) (aWr2 m c) (aB2 m c)) (aG2 m c) (aBe2 m c))
            (aEi m c) (aWl3 m c) (aWr3 m c) (aB3 m c)) (aG3 m c) (aBe3 m c))
          (aWm1 m c) (aBm1 m c) (aWm2 m c) (aBm2 m c) := by
  obtain ⟨hx, hWl1, hWr1, hb1, hWl2, hWr2, hb2, hWl3, hWr3, hb3, hg1, hbe1, hg2, hbe2, hg3, hbe3, -⟩ :=
    Cert.Spec.Finite.real_of_pre _ _ _ _ _ _ _ _ _ _ _ _ _ _ _ _ _ _ _ _ _ _ (hPre c)
  obtain ⟨h1, r1⟩ := layer1 (V1 m ρ) (V3 m ρ) c (aX m c) (aEi m c) (aWl1 m c) (aWr1 m c) (aB1 m c) (aG1 m c) (aBe1 m c)
    hx hWl1 hWr1 hb1 hg1 hbe1
    (entry0_0 m ρ c) (entry0_1 m ρ c) (entry0_2 m ρ c) (entry0_3 m ρ c) (entry0_4 m ρ c) (entry0_5 m ρ c)
    (entry1_0 m ρ c) (entry1_1 m ρ c) (entry1_2 m ρ c) (entry1_3 m ρ c) (entry1_4 m ρ c)
  obtain ⟨h2, r2⟩ := layer2 (V5 m ρ) (V7 m ρ) c (refH1 m c) (aEi m c) (aWl2 m c) (aWr2 m c) (aB2 m c) (aG2 m c) (aBe2 m c)
    r1 hWl2 hWr2 hb2 hg2 hbe2
    ((entry2_0 m ρ c).trans (congrArg (fun H => kAgg128 (F := Ideal) H (aEi m c)) h1)) ((entry2_1 m ρ c).trans h1)
    (entry2_2 m ρ c) (entry2_3 m ρ c) (entry2_4 m ρ c) (entry2_5 m ρ c)
    (entry3_0 m ρ c) (entry3_1 m ρ c) (entry3_2 m ρ c) (entry3_3 m ρ c) (entry3_4 m ρ c)
  obtain ⟨h3, r3⟩ := layer3 (V9 m ρ) (V11 m ρ) c (refH2 m c) (aEi m c) (aWl3 m c) (aWr3 m c) (aB3 m c) (aG3 m c) (aBe3 m c)
    r2 hWl3 hWr3 hb3 hg3 hbe3
    ((entry4_0 m ρ c).trans (congrArg (fun H => kAgg128 (F := Ideal) H (aEi m c)) h2)) ((entry4_1 m ρ c).trans h2)
    (entry4_2 m ρ c) (entry4_3 m ρ c) (entry4_4 m ρ c) (entry4_5 m ρ c)
    (entry5_0 m ρ c) (entry5_1 m ρ c) (entry5_2 m ρ c) (entry5_3 m ρ c) (entry5_4 m ρ c)
  exact head_value (V13 m ρ) c (refH3 m c) (aWm1 m c) (aBm1 m c) (aWm2 m c) (aBm2 m c)
    ((entry6_0 m ρ c).trans h3) (entry6_1 m ρ c) (entry6_2 m ρ c) (entry6_3 m ρ c) (entry6_4 m ρ c)
end Value

end Cert.KernelIdeal.Hand

end
-- ==== Proof.Ref.Line.lean ====
import proofs.«176666_j61426622267897_1_alg».proof.Proof.Ref.Stages
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F] {lo : Nat}

section

variable {x a b c y : Ref sig .tc}

-- What the run asks of one operation of a line: it touches the device's own references only, determines its result, and writes at a reference numbered `lo` or later.
def Good (lo : Nat) (op : HloOp τ sig (Elt F)) : Prop :=
  op.bufs ⊆ tcRefs τ sig ∧ op.fresh = ∅ ∧ ∃ y : Ref sig .tc, op.writes = {Proc.devRef .tc y} ∧ lo ≤ y.idx.val

theorem good_nullary (v) (hy) (h : lo ≤ y.idx.val) : Good lo (nullary (τ := τ) (Val := Elt F) y v hy) :=
  ⟨nullary_bufs_sub .., rfl, y, rfl, h⟩
theorem good_unary (f) (hx hy) (h : lo ≤ y.idx.val) : Good lo (unary (τ := τ) (Val := Elt F) x y f hx hy) :=
  ⟨unary_bufs_sub .., rfl, y, rfl, h⟩
theorem good_binary (f) (ha hb hy) (h : lo ≤ y.idx.val) : Good lo (binary (τ := τ) (Val := Elt F) a b y f ha hb hy) :=
  ⟨binary_bufs_sub .., rfl, y, rfl, h⟩
theorem good_ternary (f) (hc ha hb hy) (h : lo ≤ y.idx.val) : Good lo (ternary (τ := τ) (Val := Elt F) c a b y f hc ha hb hy) :=
  ⟨ternary_bufs_sub .., rfl, y, rfl, h⟩
theorem good_reshape (he hn hx hy) (h : lo ≤ y.idx.val) : Good lo (reshape (τ := τ) (Val := Elt F) x y he hn hx hy) :=
  ⟨reshape_bufs_sub .., rfl, y, rfl, h⟩

-- A line writing from `lo` on leaves every earlier reference as it was: no operation of it writes there.
theorem keep {l : List (HloOp τ sig (Elt F))} (hl : l.Forall (Good lo)) (V : Valuation τ sig (Elt F)) {r : Ref sig .tc}
    (h : r.idx.val < lo) : after l V (no_index (Proc.devRef .tc r)) = V (Proc.devRef .tc r) :=
  after_of_forall_not_mem l V fun op ho hm => by
    obtain ⟨_, _, y, hw, hy⟩ := List.forall_iff_forall_mem.1 hl op ho
    rw [hw, Finset.mem_singleton] at hm
    obtain rfl := Proc.devRef_injective _ hm
    exact Nat.not_le.2 h hy

-- Two lines in a row, the second writing later references, are one line.
theorem good_append {l₁ l₂ : List (HloOp τ sig (Elt F))} {hi : Nat} (h₁ : l₁.Forall (Good lo)) (h₂ : l₂.Forall (Good hi))
    (h : lo ≤ hi) : (l₁ ++ l₂).Forall (Good lo) :=
  List.forall_append.2 ⟨h₁, h₂.imp fun _ g => ⟨g.1, g.2.1, g.2.2.imp fun _ hy => ⟨hy.1, h.trans hy.2⟩⟩⟩

end

-- A hidden layer before normalisation, over the buffers it reads and the ones it writes.
def layerOps (h t10 t12 t23 t24 t25 t26 t27 t29 t30 : TRef sig ⟨S100000x128, .f32⟩) (src dst t1 t4 t5 t6 : TRef sig ⟨S1600000, .i32⟩) (Wl Wr : TRef sig ⟨S128x128, .f32⟩) (b : TRef sig ⟨S128, .f32⟩) (t0 t3 : TRef sig ⟨S_, .i32⟩) (t2 : TRef sig ⟨S1600000, .i1⟩) (t7 t11 t17 : TRef sig ⟨S1600000x1, .i32⟩) (t8 : TRef sig ⟨S1600000x128, .f32⟩) (t9 t13 t15 t19 : TRef sig ⟨S_, .f32⟩) (t14 : TRef sig ⟨S1600000, .f32⟩) (t16 t18 t20 t21 : TRef sig ⟨S100000, .f32⟩) (t22 : TRef sig ⟨S100000x1, .f32⟩) (t28 : TRef sig ⟨S1x128, .f32⟩) :
    List (HloOp τ sig (Elt F)) :=
  [ TRef.nullary t0 (constantI S_ 32 0#32),
    TRef.unary t0 t1 (broadcastInDim S1600000 ![] bcast_S_S1600000),
    TRef.binary src t1 t2 (cmpi .slt),
    TRef.nullary t3 (constantI S_ 32 100000#32),
    TRef.unary t3 t4 (broadcastInDim S1600000 ![] bcast_S_S1600000),
    TRef.binary src t4 t5 addi,
    TRef.ternary t2 t5 src t6 select,
    TRef.unary t6 t7 (broadcastInDim S1600000x1 ![0] bcast_S1600000_S1600000x1_0),
    TRef.binary h t7 t8 (fun x i => Host.gather gather_S100000x128_S1600000x1_S1600000x128_1_0_n_n_0_1_1128 x i),
    TRef.nullary t9 (constant S_ .f32 0x00000000#32),
    TRef.unary t9 t10 (broadcastInDim S100000x128 ![] bcast_S_S100000x128),
    TRef.unary dst t11 (broadcastInDim S1600000x1 ![0] bcast_S1600000_S1600000x1_0),
    TRef.ternary t10 t11 t8 t12 (fun x i u => Host.scatterAdd scatter_S100000x128_S1600000x1_S1600000x128_1_0_0_1 x i u),
    TRef.nullary t13 (constant S_ .f32 0x3F800000#32),
    TRef.unary t13 t14 (broadcastInDim S1600000 ![] bcast_S_S1600000),
    TRef.nullary t15 (constant S_ .f32 0x00000000#32),
    TRef.unary t15 t16 (broadcastInDim S100000 ![] bcast_S_S100000),
    TRef.unary dst t17 (broadcastInDim S1600000x1 ![0] bcast_S1600000_S1600000x1_0),
    TRef.ternary t16 t17 t14 t18 (fun x i u => Host.scatterAdd scatter_S100000_S1600000x1_S1600000_n_0_0_1 x i u),
    TRef.nullary t19 (constant S_ .f32 0x3F800000#32),
    TRef.unary t19 t20 (broadcastInDim S100000 ![] bcast_S_S100000),
    TRef.binary t18 t20 t21 maximumf,
    TRef.unary t21 t22 (broadcastInDim S100000x1 ![0] bcast_S100000_S100000x1_0),
    TRef.unary t22 t23 (broadcastInDim S100000x128 ![0, 1] bcast_S100000x1_S100000x128_0_1),
    TRef.binary t12 t23 t24 Host.divf,
    TRef.binary t24 Wl t25 (fun l r => Host.dotGeneral dot_S100000x128_S128x128_S100000x128_1_0_0_1_n_n none l r),
    TRef.binary h Wr t26 (fun l r => Host.dotGeneral dot_S100000x128_S128x128_S100000x128_1_0_0_1_n_n none l r),
    TRef.binary t25 t26 t27 addf,
    TRef.unary b t28 (broadcastInDim S1x128 ![1] bcast_S128_S1x128_1),
    TRef.unary t28 t29 (broadcastInDim S100000x128 ![0, 1] bcast_S1x128_S100000x128_0_1),
    TRef.binary t27 t29 t30 addf ]

-- Batch normalisation, the affine map and the maximum with zero, over the buffers read and written.
def bnOps (h t7 t8 t14 t15 t17 t18 t20 t21 : TRef sig ⟨S100000x128, .f32⟩) (g be t1 t3 t4 t10 t11 t12 : TRef sig ⟨S128, .f32⟩) (t0 t2 t9 : TRef sig ⟨S_, .f32⟩) (t5 : TRef sig ⟨S_, .i32⟩) (t6 t13 t16 t19 : TRef sig ⟨S1x128, .f32⟩)
    (φ : fn_var.Bufs) (ψ : fn_relu.Bufs) : List (HloOp τ sig (Elt F)) :=
  [ TRef.nullary t0 (constant S_ .f32 0x00000000#32),
    TRef.binary h t0 t1 (fun x v => Host.reduceAdd x v reducesTo_S100000x128_S128_d0 h_S_),
    TRef.nullary t2 (constant S_ .f32 0x47C35000#32),
    TRef.unary t2 t3 (broadcastInDim S128 ![] bcast_S_S128),
    TRef.binary t1 t3 t4 Host.divf,
    TRef.nullary t5 (constantI S_ 32 0#32),
    TRef.nullary φ.cst (constant S_ .f32 0x00000000#32),
    TRef.binary h φ.cst φ.v0 (fun x v => Host.reduceAdd x v reducesTo_S100000x128_S128_d0 h_S_),
    TRef.unary φ.v0 φ.v1 (broadcastInDim S1x128 ![1] bcast_S128_S1x128_1),
    TRef.nullary φ.cst_0 (constant S_ .f32 0x47C35000#32),
    TRef.unary φ.cst_0 φ.v2 (broadcastInDim S1x128 ![] bcast_S_S1x128),
    TRef.binary φ.v1 φ.v2 φ.v3 Host.divf,
    TRef.unary φ.v3 φ.v4 (broadcastInDim S100000x128 ![0, 1] bcast_S1x128_S100000x128_0_1),
    TRef.binary h φ.v4 φ.v5 subf,
    TRef.binary φ.v5 φ.v5 φ.v6 mulf,
    TRef.unary t5 φ.v7 (sitofp .f32),
    TRef.nullary φ.cst_1 (constant S_ .f32 0x47C35000#32),
    TRef.binary φ.cst_1 φ.v7 φ.v8 subf,
    TRef.nullary φ.cst_2 (constant S_ .f32 0x00000000#32),
    TRef.binary φ.v6 φ.cst_2 φ.v9 (fun x v => Host.reduceAdd x v reducesTo_S100000x128_S128_d0 h_S_),
    TRef.unary φ.v8 φ.v10 (broadcastInDim S128 ![] bcast_S_S128),
    TRef.binary φ.v9 φ.v10 φ.v11 Host.divf,
    TRef.nullary φ.cst_3 (constant S_ .f32 0x00000000#32),
    TRef.binary φ.v8 φ.cst_3 φ.v12 (cmpf .ogt),
    TRef.nullary φ.cst_4 (constant S_ .f32 0x7FC00000#32),
    TRef.unary φ.cst_4 φ.call0.v0 id,
    TRef.unary φ.call0.v0 φ.call0.v1 (broadcastInDim S128 ![] bcast_S_S128),
    TRef.ternary φ.v12 φ.v11 φ.call0.v1 φ.call0.v2 (fun p a b => select (broadcastInDim S128 ![] bcast_S_S128 p) a b),
    TRef.unary t4 t6 (broadcastInDim S1x128 ![1] bcast_S128_S1x128_1),
    TRef.unary t6 t7 (broadcastInDim S100000x128 ![0, 1] bcast_S1x128_S100000x128_0_1),
    TRef.binary h t7 t8 subf,
    TRef.nullary t9 (constant S_ .f32 0x3727C5AC#32),
    TRef.unary t9 t10 (broadcastInDim S128 ![] bcast_S_S128),
    TRef.binary φ.call0.v2 t10 t11 addf,
    TRef.unary t11 t12 Host.rsqrt,
    TRef.unary t12 t13 (broadcastInDim S1x128 ![1] bcast_S128_S1x128_1),
    TRef.unary t13 t14 (broadcastInDim S100000x128 ![0, 1] bcast_S1x128_S100000x128_0_1),
    TRef.binary t8 t14 t15 mulf,
    TRef.unary g t16 (broadcastInDim S1x128 ![1] bcast_S128_S1x128_1),
    TRef.unary t16 t17 (broadcastInDim S100000x128 ![0, 1] bcast_S1x128_S100000x128_0_1),
    TRef.binary t15 t17 t18 mulf,
    TRef.unary be t19 (broadcastInDim S1x128 ![1] bcast_S128_S1x128_1),
    TRef.unary t19 t20 (broadcastInDim S100000x128 ![0, 1] bcast_S1x128_S100000x128_0_1),
    TRef.binary t18 t20 t21 addf,
    TRef.nullary ψ.cst (constant S_ .f32 0x00000000#32),
    TRef.unary ψ.cst ψ.v0 (broadcastInDim S100000x128 ![] bcast_S_S100000x128),
    TRef.binary t21 ψ.v0 ψ.v1 maximumf ]

theorem good_split {l : List (HloOp τ sig (Elt F))} (h : l.Forall (Good lo)) (n : Nat) :
    (l.take n).Forall (Good lo) ∧ (l.drop n).Forall (Good lo) := by
  rw [← List.forall_append, List.take_append_drop]; exact h

theorem after_drop_take (l : List (HloOp τ sig (Elt F))) (n : Nat) (V : Valuation τ sig (Elt F)) :
    after (l.drop n) (after (l.take n) V) = after l V := by
  rw [← after_append, List.take_append_drop]

end Cert.ReferenceIdeal.Hand

end
-- ==== Proof.Ref.Chunk1.lean ====
import proofs.«176666_j61426622267897_1_alg».proof.Proof.Ref.Line

set_option maxRecDepth 8192
set_option maxHeartbeats 400000

noncomputable section

namespace Cert.ReferenceIdeal.Hand

open Cert.ReferenceIdeal Cert.ReferenceIdeal.Gen Idealize.ShloMosaic Idealize.ShloMosaic.TcCoe Idealize.SL.Sem Idealize.ShloMosaic.StableHlo

attribute [local irreducible] Host.gather Host.reduce

variable {F : FTy → Type} [FloatOps F] (W : Valuation τ sig (Elt F))

-- The first layer before normalisation: the two index rows, then the layer at 64 input features.
def firstOps (x t14 t16 t27 t28 : TRef sig ⟨S100000x64, .f32⟩) (ei : TRef sig ⟨S2x1600000, .i32⟩) (Wl Wr : TRef sig ⟨S64x128, .f32⟩) (b : TRef sig ⟨S128, .f32⟩) (t0 t2 : TRef sig ⟨S1x1600000, .i32⟩) (t1 t3 t5 t8 t9 t10 : TRef sig ⟨S1600000, .i32⟩) (t4 t7 : TRef sig ⟨S_, .i32⟩) (t6 : TRef sig ⟨S1600000, .i1⟩) (t11 t15 t21 : TRef sig ⟨S1600000x1, .i32⟩) (t12 : TRef sig ⟨S1600000x64, .f32⟩) (t13 t17 t19 t23 : TRef sig ⟨S_, .f32⟩) (t18 : TRef sig ⟨S1600000, .f32⟩) (t20 t22 t24 t25 : TRef sig ⟨S100000, .f32⟩) (t26 : TRef sig ⟨S100000x1, .f32⟩) (t29 t30 t31 t33 t34 : TRef sig ⟨S100000x128, .f32⟩) (t32 : TRef sig ⟨S1x128, .f32⟩) :
    List (HloOp τ sig (Elt F)) :=
  [ TRef.unary ei t0 (extractStridedSlice S1x1600000 ![0, 0] · slices_S2x1600000_S1x1600000_0_0),
    TRef.reshape t0 t1 rfl shapeCasts_S1x1600000_S1600000,
    TRef.unary ei t2 (extractStridedSlice S1x1600000 ![1, 0] · slices_S2x1600000_S1x1600000_1_0),
    TRef.reshape t2 t3 rfl shapeCasts_S1x1600000_S1600000,
    TRef.nullary t4 (constantI S_ 32 0#32),
    TRef.unary t4 t5 (broadcastInDim S1600000 ![] bcast_S_S1600000),
    TRef.binary t1 t5 t6 (cmpi .slt),
    TRef.nullary t7 (constantI S_ 32 100000#32),
    TRef.unary t7 t8 (broadcastInDim S1600000 ![] bcast_S_S1600000),
    TRef.binary t1 t8 t9 addi,
    TRef.ternary t6 t9 t1 t10 select,
    TRef.unary t10 t11 (broadcastInDim S1600000x1 ![0] bcast_S1600000_S1600000x1_0),
    TRef.binary x t11 t12 (fun x i => Host.gather gather_S100000x64_S1600000x1_S1600000x64_1_0_n_n_0_1_164 x i),
    TRef.nullary t13 (constant S_ .f32 0x00000000#32),
    TRef.unary t13 t14 (broadcastInDim S100000x64 ![] bcast_S_S100000x64),
    TRef.unary t3 t15 (broadcastInDim S1600000x1 ![0] bcast_S1600000_S1600000x1_0),
    TRef.ternary t14 t15 t12 t16 (fun x i u => Host.scatterAdd scatter_S100000x64_S1600000x1_S1600000x64_1_0_0_1 x i u),
    TRef.nullary t17 (constant S_ .f32 0x3F800000#32),
    TRef.unary t17 t18 (broadcastInDim S1600000 ![] bcast_S_S1600000),
    TRef.nullary t19 (constant S_ .f32 0x00000000#32),
    TRef.unary t19 t20 (broadcastInDim S100000 ![] bcast_S_S100000),
    TRef.unary t3 t21 (broadcastInDim S1600000x1 ![0] bcast_S1600000_S1600000x1_0),
    TRef.ternary t20 t21 t18 t22 (fun x i u => Host.scatterAdd scatter_S100000_S1600000x1_S1600000_n_0_0_1 x i u),
    TRef.nullary t23 (constant S_ .f32 0x3F800000#32),
    TRef.unary t23 t24 (broadcastInDim S100000 ![] bcast_S_S100000),
    TRef.binary t22 t24 t25 maximumf,
    TRef.unary t25 t26 (broadcastInDim S100000x1 ![0] bcast_S100000_S100000x1_0),
    TRef.unary t26 t27 (broadcastInDim S100000x64 ![0, 1] bcast_S100000x1_S100000x64_0_1),
    TRef.binary t16 t27 t28 Host.divf,
    TRef.binary t28 Wl t29 (fun l r => Host.dotGeneral dot_S100000x64_S64x128_S100000x128_1_0_0_1_n_n none l r),
    TRef.binary x Wr t30 (fun l r => Host.dotGeneral dot_S100000x64_S64x128_S100000x128_1_0_0_1_n_n none l r),
    TRef.binary t29 t30 t31 addf,
    TRef.unary b t32 (broadcastInDim S1x128 ![1] bcast_S128_S1x128_1),
    TRef.unary t32 t33 (broadcastInDim S100000x128 ![0, 1] bcast_S1x128_S100000x128_0_1),
    TRef.binary t31 t33 t34 addf ]

def p1 : List (HloOp τ sig (Elt F)) :=
  firstOps (.of main_arg0) (.of main_v11) (.of main_v13) (.of main_v21) (.of main_v22) (.of main_arg1) (.of main_arg3) (.of main_arg4) (.of main_arg5) (.of main_v0) (.of main_v2) (.of main_v1) (.of main_v3) (.of main_v4) (.of main_v6) (.of main_v7) (.of main_v8) (.of main_c) (.of main_c_0) (.of main_v5) (.of main_v9) (.of main_v12) (.of main_v16) (.of main_v10) (.of main_cst) (.of main_cst_1) (.of main_cst_2) (.of main_cst_3) (.of main_v14) (.of main_v15) (.of main_v17) (.of main_v18) (.of main_v19) (.of main_v20) (.of main_v23) (.of main_v24) (.of main_v25) (.of main_v27) (.of main_v28) (.of main_v26)

theorem p1_good : (p1 : List (HloOp τ sig (Elt F))).Forall (Good 22) := by
  simp (disch := decide) only [p1, firstOps, List.Forall, good_nullary, good_unary, good_binary, good_ternary, good_reshape, and_self]

theorem p1_v1 : after p1 W (no_index (Proc.devRef .tc main_v1)) = refSrc (W (Proc.devRef .tc main_arg1)) := by
  simp only [p1, firstOps]
  after_results_simp
  rfl

theorem p1_v3 : after p1 W (no_index (Proc.devRef .tc main_v3)) = refDst (W (Proc.devRef .tc main_arg1)) := by
  simp only [p1, firstOps]
  after_results_simp
  rfl

theorem p1_v28 : after p1 W (no_index (Proc.devRef .tc main_v28)) = refPreS64 (W (Proc.devRef .tc main_arg0)) (refSrc (W (Proc.devRef .tc main_arg1))) (refDst (W (Proc.devRef .tc main_arg1))) (W (Proc.devRef .tc main_arg3)) (W (Proc.devRef .tc main_arg4)) (W (Proc.devRef .tc main_arg5)) := by
  simp only [p1, firstOps]
  after_results_simp
  rfl

end Cert.ReferenceIdeal.Hand

end
-- ==== Proof.Ref.Chunk2.lean ====
import proofs.«176666_j61426622267897_1_alg».proof.Proof.Ref.Line

set_option maxRecDepth 8192
set_option maxHeartbeats 1000000

noncomputable section

namespace Cert.ReferenceIdeal.Hand

open Cert.ReferenceIdeal Cert.ReferenceIdeal.Gen Idealize.ShloMosaic Idealize.ShloMosaic.TcCoe Idealize.SL.Sem Idealize.ShloMosaic.StableHlo

attribute [local irreducible] Host.gather Host.reduce

variable {F : FTy → Type} [FloatOps F] (W : Valuation τ sig (Elt F))

def p2 : List (HloOp τ sig (Elt F)) :=
  bnOps (.of main_v28) (.of main_v34) (.of main_v35) (.of main_v40) (.of main_v41) (.of main_v43) (.of main_v44) (.of main_v46) (.of main_v47) (.of main_arg12) (.of main_arg13) (.of main_v29) (.of main_v30) (.of main_v31) (.of main_v36) (.of main_v37) (.of main_v38) (.of main_cst_4) (.of main_cst_5) (.of main_cst_7) (.of main_c_6) (.of main_v33) (.of main_v39) (.of main_v42) (.of main_v45)
    main_call0 main_call1

theorem p2_good : (p2 : List (HloOp τ sig (Elt F))).Forall (Good 57) := by
  simp (disch := decide) only [p2, bnOps, List.Forall, good_nullary, good_unary, good_binary, good_ternary, good_reshape, and_self]

theorem p2_v48 : after p2 W (no_index (Proc.devRef .tc main_v48)) = refBnRelu (W (Proc.devRef .tc main_v28)) (W (Proc.devRef .tc main_arg12)) (W (Proc.devRef .tc main_arg13)) := by
  simp only [p2, bnOps]
  after_results_simp
  rfl

end Cert.ReferenceIdeal.Hand

end
-- ==== Proof.Ref.Chunk3.lean ====
import proofs.«176666_j61426622267897_1_alg».proof.Proof.Ref.Line

set_option maxRecDepth 8192
set_option maxHeartbeats 400000

noncomputable section

namespace Cert.ReferenceIdeal.Hand

open Cert.ReferenceIdeal Cert.ReferenceIdeal.Gen Idealize.ShloMosaic Idealize.ShloMosaic.TcCoe Idealize.SL.Sem Idealize.ShloMosaic.StableHlo

attribute [local irreducible] Host.gather Host.reduce

variable {F : FTy → Type} [FloatOps F] (W : Valuation τ sig (Elt F))

def l2 : List (HloOp τ sig (Elt F)) :=
  layerOps (.of main_v48) (.of main_v56) (.of main_v58) (.of main_v66) (.of main_v67) (.of main_v68) (.of main_v69) (.of main_v70) (.of main_v72) (.of main_v73) (.of main_v1) (.of main_v3) (.of main_v49) (.of main_v51) (.of main_v52) (.of main_v53) (.of main_arg6) (.of main_arg7) (.of main_arg8) (.of main_c_8) (.of main_c_9) (.of main_v50) (.of main_v54) (.of main_v57) (.of main_v61) (.of main_v55) (.of main_cst_10) (.of main_cst_11) (.of main_cst_12) (.of main_cst_13) (.of main_v59) (.of main_v60) (.of main_v62) (.of main_v63) (.of main_v64) (.of main_v65) (.of main_v71)

theorem l2_good : (l2 : List (HloOp τ sig (Elt F))).Forall (Good 104) := by
  simp (disch := decide) only [l2, layerOps, List.Forall, good_nullary, good_unary, good_binary, good_ternary, good_reshape, and_self]

theorem l2_v73 : after l2 W (no_index (Proc.devRef .tc main_v73)) = refPreS128 (W (Proc.devRef .tc main_v48)) (W (Proc.devRef .tc main_v1)) (W (Proc.devRef .tc main_v3)) (W (Proc.devRef .tc main_arg6)) (W (Proc.devRef .tc main_arg7)) (W (Proc.devRef .tc main_arg8)) := by
  simp only [l2, layerOps]
  after_results_simp
  rfl

end Cert.ReferenceIdeal.Hand

end
-- ==== Proof.Ref.Chunk4.lean ====
import proofs.«176666_j61426622267897_1_alg».proof.Proof.Ref.Line

set_option maxRecDepth 8192
set_option maxHeartbeats 1000000

noncomputable section

namespace Cert.ReferenceIdeal.Hand

open Cert.ReferenceIdeal Cert.ReferenceIdeal.Gen Idealize.ShloMosaic Idealize.ShloMosaic.TcCoe Idealize.SL.Sem Idealize.ShloMosaic.StableHlo

attribute [local irreducible] Host.gather Host.reduce

variable {F : FTy → Type} [FloatOps F] (W : Valuation τ sig (Elt F))

def p5 : List (HloOp τ sig (Elt F)) :=
  bnOps (.of main_v73) (.of main_v79) (.of main_v80) (.of main_v85) (.of main_v86) (.of main_v88) (.of main_v89) (.of main_v91) (.of main_v92) (.of main_arg14) (.of main_arg15) (.of main_v74) (.of main_v75) (.of main_v76) (.of main_v81) (.of main_v82) (.of main_v83) (.of main_cst_14) (.of main_cst_15) (.of main_cst_17) (.of main_c_16) (.of main_v78) (.of main_v84) (.of main_v87) (.of main_v90)
    main_call2 main_call3

theorem p5_good : (p5 : List (HloOp τ sig (Elt F))).Forall (Good 135) := by
  simp (disch := decide) only [p5, bnOps, List.Forall, good_nullary, good_unary, good_binary, good_ternary, good_reshape, and_self]

theorem p5_v93 : after p5 W (no_index (Proc.devRef .tc main_v93)) = refBnRelu (W (Proc.devRef .tc main_v73)) (W (Proc.devRef .tc main_arg14)) (W (Proc.devRef .tc main_arg15)) := by
  simp only [p5, bnOps]
  after_results_simp
  rfl

end Cert.ReferenceIdeal.Hand

end
-- ==== Proof.Ref.Chunk5.lean ====
import proofs.«176666_j61426622267897_1_alg».proof.Proof.Ref.Line

set_option maxRecDepth 8192
set_option maxHeartbeats 400000

noncomputable section

namespace Cert.ReferenceIdeal.Hand

open Cert.ReferenceIdeal Cert.ReferenceIdeal.Gen Idealize.ShloMosaic Idealize.ShloMosaic.TcCoe Idealize.SL.Sem Idealize.ShloMosaic.StableHlo

attribute [local irreducible] Host.gather Host.reduce

variable {F : FTy → Type} [FloatOps F] (W : Valuation τ sig (Elt F))

def l3 : List (HloOp τ sig (Elt F)) :=
  layerOps (.of main_v93) (.of main_v101) (.of main_v103) (.of main_v111) (.of main_v112) (.of main_v113) (.of main_v114) (.of main_v115) (.of main_v117) (.of main_v118) (.of main_v1) (.of main_v3) (.of main_v94) (.of main_v96) (.of main_v97) (.of main_v98) (.of main_arg9) (.of main_arg10) (.of main_arg11) (.of main_c_18) (.of main_c_19) (.of main_v95) (.of main_v99) (.of main_v102) (.of main_v106) (.of main_v100) (.of main_cst_20) (.of main_cst_21) (.of main_cst_22) (.of main_cst_23) (.of main_v104) (.of main_v105) (.of main_v107) (.of main_v108) (.of main_v109) (.of main_v110) (.of main_v116)

theorem l3_good : (l3 : List (HloOp τ sig (Elt F))).Forall (Good 182) := by
  simp (disch := decide) only [l3, layerOps, List.Forall, good_nullary, good_unary, good_binary, good_ternary, good_reshape, and_self]

theorem l3_v118 : after l3 W (no_index (Proc.devRef .tc main_v118)) = refPreS128 (W (Proc.devRef .tc main_v93)) (W (Proc.devRef .tc main_v1)) (W (Proc.devRef .tc main_v3)) (W (Proc.devRef .tc main_arg9)) (W (Proc.devRef .tc main_arg10)) (W (Proc.devRef .tc main_arg11)) := by
  simp only [l3, layerOps]
  after_results_simp
  rfl

end Cert.ReferenceIdeal.Hand

end
-- ==== Proof.Ref.Chunk6.lean ====
import proofs.«176666_j61426622267897_1_alg».proof.Proof.Ref.Line

set_option maxRecDepth 8192
set_option maxHeartbeats 1000000

noncomputable section

namespace Cert.ReferenceIdeal.Hand

open Cert.ReferenceIdeal Cert.ReferenceIdeal.Gen Idealize.ShloMosaic Idealize.ShloMosaic.TcCoe Idealize.SL.Sem Idealize.ShloMosaic.StableHlo

attribute [local irreducible] Host.gather Host.reduce

variable {F : FTy → Type} [FloatOps F] (W : Valuation τ sig (Elt F))

def p8 : List (HloOp τ sig (Elt F)) :=
  bnOps (.of main_v118) (.of main_v124) (.of main_v125) (.of main_v130) (.of main_v131) (.of main_v133) (.of main_v134) (.of main_v136) (.of main_v137) (.of main_arg16) (.of main_arg17) (.of main_v119) (.of main_v120) (.of main_v121) (.of main_v126) (.of main_v127) (.of main_v128) (.of main_cst_24) (.of main_cst_25) (.of main_cst_27) (.of main_c_26) (.of main_v123) (.of main_v129) (.of main_v132) (.of main_v135)
    main_call4 main_call5

theorem p8_good : (p8 : List (HloOp τ sig (Elt F))).Forall (Good 213) := by
  simp (disch := decide) only [p8, bnOps, List.Forall, good_nullary, good_unary, good_binary, good_ternary, good_reshape, and_self]

theorem p8_v138 : after p8 W (no_index (Proc.devRef .tc main_v138)) = refBnRelu (W (Proc.devRef .tc main_v118)) (W (Proc.devRef .tc main_arg16)) (W (Proc.devRef .tc main_arg17)) := by
  simp only [p8, bnOps]
  after_results_simp
  rfl

end Cert.ReferenceIdeal.Hand

end
-- ==== Proof.Ref.Chunk7.lean ====
import proofs.«176666_j61426622267897_1_alg».proof.Proof.Ref.Line

set_option maxRecDepth 8192
set_option maxHeartbeats 400000

noncomputable section

namespace Cert.ReferenceIdeal.Hand

open Cert.ReferenceIdeal Cert.ReferenceIdeal.Gen Idealize.ShloMosaic Idealize.ShloMosaic.TcCoe Idealize.SL.Sem Idealize.ShloMosaic.StableHlo

attribute [local irreducible] Host.gather Host.reduce

variable {F : FTy → Type} [FloatOps F] (W : Valuation τ sig (Elt F))

def p9 : List (HloOp τ sig (Elt F)) :=
  [ binary main_v138 main_arg18 main_v139 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg19 main_v140 (broadcastInDim S1x128 ![1] bcast_S128_S1x128_1 : (⟨S128, .f32⟩ : BufTy).Contents (Elt F) → (⟨S1x128, .f32⟩ : BufTy).Contents (Elt F)),
    unary main_v140 main_v141 (broadcastInDim S100000x128 ![0, 1] bcast_S1x128_S100000x128_0_1 : (⟨S1x128, .f32⟩ : BufTy).Contents (Elt F) → (⟨S100000x128, .f32⟩ : BufTy).Contents (Elt F)),
    binary main_v139 main_v141 main_v142 (addf : (⟨S100000x128, .f32⟩ : BufTy).Contents (Elt F) → (⟨S100000x128, .f32⟩ : BufTy).Contents (Elt F) → (⟨S100000x128, .f32⟩ : BufTy).Contents (Elt F)),
    binary main_v142 main_arg20 main_v143 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    unary main_arg21 main_v144 (broadcastInDim S1x40 ![1] bcast_S40_S1x40_1 : (⟨S40, .f32⟩ : BufTy).Contents (Elt F) → (⟨S1x40, .f32⟩ : BufTy).Contents (Elt F)),
    unary main_v144 main_v145 (broadcastInDim S100000x40 ![0, 1] bcast_S1x40_S100000x40_0_1 : (⟨S1x40, .f32⟩ : BufTy).Contents (Elt F) → (⟨S100000x40, .f32⟩ : BufTy).Contents (Elt F)),
    binary main_v143 main_v145 main_v146 (addf : (⟨S100000x40, .f32⟩ : BufTy).Contents (Elt F) → (⟨S100000x40, .f32⟩ : BufTy).Contents (Elt F) → (⟨S100000x40, .f32⟩ : BufTy).Contents (Elt F)) ]

theorem p9_good : (p9 : List (HloOp τ sig (Elt F))).Forall (Good 260) := by
  simp (disch := decide) only [p9, List.Forall, good_nullary, good_unary, good_binary, good_ternary, good_reshape, and_self]

-- The row log-softmax's operations with the row maximum `R` left open: what they compute does not depend on it.
def p10g (R : Arr F S100000x40 .f32 → Arr F S_ .f32 → Arr F S100000 .f32) : List (HloOp τ sig (Elt F)) :=
  [ TRef.nullary main_call6.cst (constant S_ .f32 0xFF800000#32),
    TRef.binary (.of main_v146 : StableHlo.TRef sig ⟨S100000x40, .f32⟩) main_call6.cst main_call6.v0 R,
    TRef.nullary main_call6.cst_0 (constant S_ .f32 0xFF800000#32),
    TRef.unary main_call6.cst_0 main_call6.v1 (broadcastInDim S100000 ![] bcast_S_S100000),
    TRef.binary main_call6.v1 main_call6.v0 main_call6.v2 maximumf,
    TRef.unary main_call6.v2 main_call6.v3 (broadcastInDim S100000x1 ![0] bcast_S100000_S100000x1_0),
    TRef.unary main_call6.v3 main_call6.v4 (broadcastInDim S100000x40 ![0, 1] bcast_S100000x1_S100000x40_0_1),
    TRef.binary (.of main_v146 : StableHlo.TRef sig ⟨S100000x40, .f32⟩) main_call6.v4 main_call6.v5 subf,
    TRef.unary main_call6.v5 main_call6.v6 Host.exp,
    TRef.nullary main_call6.cst_1 (constant S_ .f32 0x00000000#32),
    TRef.binary main_call6.v6 main_call6.cst_1 main_call6.v7 (fun x v => Host.reduceAdd x v reducesTo_S100000x40_S100000_d1 h_S_),
    TRef.unary main_call6.v7 main_call6.v8 (broadcastInDim S100000x1 ![0] bcast_S100000_S100000x1_0),
    TRef.unary main_call6.v8 main_call6.v9 Host.log,
    TRef.unary main_call6.v9 main_call6.v10 (broadcastInDim S100000x40 ![0, 1] bcast_S100000x1_S100000x40_0_1),
    TRef.binary main_call6.v5 main_call6.v10 main_call6.v11 subf ]

abbrev rowMax : Arr F S100000x40 .f32 → Arr F S_ .f32 → Arr F S100000 .f32 :=
  fun x v => Host.reduce FloatOps.maximumf x v reducesTo_S100000x40_S100000_d1 h_S_

def p10 : List (HloOp τ sig (Elt F)) := p10g rowMax

theorem p10_good : (p10 : List (HloOp τ sig (Elt F))).Forall (Good 268) := by
  simp (disch := decide) only [p10, p10g, List.Forall, good_nullary, good_unary, good_binary, good_ternary, good_reshape, and_self]

def refShiftedG (R : Arr F S100000x40 .f32 → Arr F S_ .f32 → Arr F S100000 .f32) (z : Arr F S100000x40 .f32) : Arr F S100000x40 .f32 :=
  subf z
    (broadcastInDim S100000x40 ![0, 1] bcast_S100000x1_S100000x40_0_1
      (broadcastInDim S100000x1 ![0] bcast_S100000_S100000x1_0
        (maximumf (broadcastInDim S100000 ![] bcast_S_S100000 (constant S_ .f32 0xFF800000#32))
          (R z (constant S_ .f32 0xFF800000#32)))))

def refLogSoftmaxG (R : Arr F S100000x40 .f32 → Arr F S_ .f32 → Arr F S100000 .f32) (z : Arr F S100000x40 .f32) : Arr F S100000x40 .f32 :=
  subf (refShiftedG R z)
    (broadcastInDim S100000x40 ![0, 1] bcast_S100000x1_S100000x40_0_1
      (Host.log (broadcastInDim S100000x1 ![0] bcast_S100000_S100000x1_0
        (Host.reduceAdd (Host.exp (refShiftedG R z)) (constant S_ .f32 0x00000000#32) reducesTo_S100000x40_S100000_d1 h_S_))))

theorem p9_v146 : after p9 W (no_index (Proc.devRef .tc main_v146)) = refLogits (W (Proc.devRef .tc main_v138)) (W (Proc.devRef .tc main_arg18)) (W (Proc.devRef .tc main_arg19)) (W (Proc.devRef .tc main_arg20)) (W (Proc.devRef .tc main_arg21)) := by
  simp only [p9]
  after_results_simp
  rfl

theorem p10g_v147 (R : Arr F S100000x40 .f32 → Arr F S_ .f32 → Arr F S100000 .f32) :
    after (p10g R) W (Proc.devRef .tc main_v147) = refLogSoftmaxG R (W (Proc.devRef .tc main_v146)) := by
  simp only [p10g]
  after_results_simp
  rfl

theorem p10_v147 : after p10 W (no_index (Proc.devRef .tc main_v147)) = refLogSoftmax (W (Proc.devRef .tc main_v146)) :=
  p10g_v147 W rowMax

end Cert.ReferenceIdeal.Hand

end
-- ==== Proof.Ref.Ops.lean ====
import proofs.«176666_j61426622267897_1_alg».proof.Proof.Ref.Chunk1
import proofs.«176666_j61426622267897_1_alg».proof.Proof.Ref.Chunk2
import proofs.«176666_j61426622267897_1_alg».proof.Proof.Ref.Chunk3
import proofs.«176666_j61426622267897_1_alg».proof.Proof.Ref.Chunk4
import proofs.«176666_j61426622267897_1_alg».proof.Proof.Ref.Chunk5
import proofs.«176666_j61426622267897_1_alg».proof.Proof.Ref.Chunk6
import proofs.«176666_j61426622267897_1_alg».proof.Proof.Ref.Chunk7
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev w0 : List (HloOp τ sig (Elt F)) := p1 ++ (p2 ++ l2.take 1)
abbrev w1 : List (HloOp τ sig (Elt F)) := l2.drop 1 ++ (p5 ++ l3.take 6)
abbrev w2 : List (HloOp τ sig (Elt F)) := l3.drop 6 ++ (p8 ++ (p9 ++ p10))
abbrev ops : List (HloOp τ sig (Elt F)) := w0 ++ (w1 ++ w2)

theorem main_part0_eq (c : Dev nD) : main_part0 (F := F) c = seq w0 := by chain_rfl
theorem main_part1_eq (c : Dev nD) : main_part1 (F := F) c = seq w1 := by chain_rfl
theorem main_part2_eq (c : Dev nD) : main_part2 (F := F) c = seq w2 := by chain_rfl

theorem main_eq (c : Dev nD) : main (F := F) c = seq ops := by
  rw [ops, seq_append w0, seq_append w1, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_good : (ops : List (HloOp τ sig (Elt F))).Forall (Good 22) :=
  good_append (good_append p1_good (good_append p2_good (good_split l2_good 1).1 (by decide)) (by decide))
    (good_append (good_append (good_split l2_good 1).2 (good_append p5_good (good_split l3_good 6).1 (by decide)) (by decide))
      (good_append (good_split l3_good 6).2 (good_append p8_good (good_append p9_good p10_good (by decide)) (by decide)) (by decide))
      (by decide)) (by decide)

-- Every fair execution of the program ends, each buffer at the fold of the operations over what it was launched with.
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_good.imp fun _ g => g.1) m ρ
    fun _ => List.forall_iff_forall_mem.1 (ops_good.imp fun _ g => g.2.1)

end Cert.ReferenceIdeal.Hand

end
-- ==== Proof.Ref.Run.lean ====
import proofs.«176666_j61426622267897_1_alg».proof.Proof.Ref.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v147) = refHead (refBnRelu (refPre128 (refBnRelu (refPre128 (refBnRelu (refPre64 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) (m ((c.tc : Thread nD τ).loc main_arg12)) (m ((c.tc : Thread nD τ).loc main_arg13))) (m ((c.tc : Thread nD τ).loc main_arg1)) (m ((c.tc : Thread nD τ).loc main_arg6)) (m ((c.tc : Thread nD τ).loc main_arg7)) (m ((c.tc : Thread nD τ).loc main_arg8))) (m ((c.tc : Thread nD τ).loc main_arg14)) (m ((c.tc : Thread nD τ).loc main_arg15))) (m ((c.tc : Thread nD τ).loc main_arg1)) (m ((c.tc : Thread nD τ).loc main_arg9)) (m ((c.tc : Thread nD τ).loc main_arg10)) (m ((c.tc : Thread nD τ).loc main_arg11))) (m ((c.tc : Thread nD τ).loc main_arg16)) (m ((c.tc : Thread nD τ).loc main_arg17))) (m ((c.tc : Thread nD τ).loc main_arg18)) (m ((c.tc : Thread nD τ).loc main_arg19)) (m ((c.tc : Thread nD τ).loc main_arg20)) (m ((c.tc : Thread nD τ).loc main_arg21))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21) :=
  (θ_run defs _ _).mono (fun _ h c =>
    have a (r : Ref sig .tc) (hr : r.idx.val < 22) : _ = m ((c.tc : Thread nD τ).loc r) :=
      (h c r).trans (keep ops_good (launchContents m c) hr)
    ⟨(h c main_v147).trans (by
        simp (disch := decide) only [ops, w0, w1, w2, after_append, after_drop_take, p10_v147, p9_v146, p8_v138, l3_v118,
          p5_v93, l2_v73, p2_v48, p1_v28, p1_v1, p1_v3, keep p1_good, keep p2_good, keep l2_good, keep p5_good, keep l3_good,
          keep p8_good, keep p9_good]
        rfl),
      a main_arg0 (by decide), a main_arg1 (by decide), a main_arg2 (by decide), a main_arg3 (by decide), a main_arg4 (by decide), a main_arg5 (by decide), a main_arg6 (by decide), a main_arg7 (by decide), a main_arg8 (by decide), a main_arg9 (by decide), a main_arg10 (by decide), a main_arg11 (by decide), a main_arg12 (by decide), a main_arg13 (by decide), a main_arg14 (by decide), a main_arg15 (by decide), a main_arg16 (by decide), a main_arg17 (by decide), a main_arg18 (by decide), a main_arg19 (by decide), a main_arg20 (by decide), a main_arg21 (by decide)⟩)
    (run_all m ρ)

end Cert.ReferenceIdeal.Hand

end
-- ==== Proof.lean ====
import proofs.«176666_j61426622267897_1_alg».proof.Defs
import proofs.«176666_j61426622267897_1_alg».proof.Proof.Gen.Kernel
import proofs.«176666_j61426622267897_1_alg».proof.Proof.Gen.KernelIdeal
import proofs.«176666_j61426622267897_1_alg».proof.Proof.Gen.ReferenceIdeal
import proofs.«176666_j61426622267897_1_alg».proof.Proof.Gen.Pre_finite_inputs
import proofs.«176666_j61426622267897_1_alg».proof.Proof.Bits.Run
import proofs.«176666_j61426622267897_1_alg».proof.Proof.Ideal.Run
import proofs.«176666_j61426622267897_1_alg».proof.Proof.Ideal.Chain
import proofs.«176666_j61426622267897_1_alg».proof.Proof.Ref.Run

noncomputable section

namespace Cert.Proof

open Idealize.ShloMosaic Idealize.SL.Sem

theorem frame_p : Cert.frame_Kernel := fun m ρ _ => Cert.Kernel.Hand.frame m ρ

theorem frame_pi : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Hand.run (F := Ideal) m ρ)

theorem preserves : Cert.preserves_Kernel_KernelIdeal := trivial

set_option maxHeartbeats 2000000 in

theorem algebraic : Cert.algebraic_KernelIdeal_ReferenceIdeal := by
  intro m ρ m' ρ' hpre hagree
  refine ⟨fun c => (Cert.KernelIdeal.Hand.dat6 (F := Ideal) (Cert.KernelIdeal.Hand.V13 m ρ) c).arrAt 5 Cert.KernelIdeal.cfg6.N,
    Cert.KernelIdeal.Hand.run_val m ρ, ?_⟩
  refine (θ_run Cert.ReferenceIdeal.defs _ _).mono (fun _ h c => ⟨(h c).1.trans ?_, (h c).2⟩)
    (Cert.ReferenceIdeal.Hand.run (F := Ideal) m' ρ')
  obtain ⟨a0, a1, a2, a3, a4, a5, a6, a7, a8, a9, a10, a11, a12, a13, a14, a15, a16, a17, a18, a19, a20, a21⟩ := hagree c
  rw [a0, a1, a3, a4, a5, a6, a7, a8, a9, a10, a11, a12, a13, a14, a15, a16, a17, a18, a19, a20, a21]
  exact (Cert.KernelIdeal.Hand.kernel_value m ρ hpre c).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
